-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v95)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v95) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v100) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S2x600000 : Shape := ⟨2, ![2, 600000]⟩
abbrev S100000 : Shape := ⟨1, ![100000]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S600000 : S_.BroadcastsInDim S600000 (![] : Fin 0 → Fin S600000.rank)
  reducesTo_S600000_S_d0 : S600000.ReducesTo [0] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x64 : S_.BroadcastsInDim S128x64 (![] : Fin 0 → Fin S128x64.rank)
  reducesTo_S128x64_S_d0_1 : S128x64.ReducesTo [0, 1] S_
  bcast_S_S64 : S_.BroadcastsInDim S64 (![] : Fin 0 → Fin S64.rank)
  reducesTo_S64_S_d0 : S64.ReducesTo [0] S_

variable [Facts]

def fn_part2 {F : FTy → Type} [FloatOps F] (main_arg9 : FVec F S64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  main_v38

def fn_part1 {F : FTy → Type} [FloatOps F] (main_arg6 : FVec F S128x128 .f32) (main_arg7 : FVec F S128 .f32) (main_arg8 : FVec F S128x64 .f32) (main_arg9 : FVec F S64 .f32) (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg7
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x64 .f32 := Host.absf main_arg8
  let main_cst_10 : FVec F S_ .f32 := constant S_ .f32 0x7F800000#32
  let main_v30 : FVec F S128x64 .f32 := broadcastInDim S128x64 ![] bcast_S_S128x64 main_cst_10
  let main_v31 : IVec S128x64 1 := cmpf .olt main_v29 main_v30
  let main_c_11 : IVec S_ 1 := constantI S_ 1 1#1
  let main_v32 : IVec S_ 1 := (fun x v => Host.reduce IntOp.andi x v reducesTo_S128x64_S_d0_1 h_S_) main_v31 main_c_11
  let main_v33 : IVec S_ 1 := andi main_v28 main_v32
  fn_part2 (F := F) main_arg9 main_v33

def fn {F : FTy → Type} [FloatOps F] (main_arg0 : FVec F S100000x128 .f32) (main_arg1 : IVec S2x600000 32) (main_arg2 : IVec S100000 32) (main_arg3 : FVec F S600000 .f32) (main_arg4 : FVec F S128x128 .f32) (main_arg5 : FVec F S128 .f32) (main_arg6 : FVec F S128x128 .f32) (main_arg7 : FVec F S128 .f32) (main_arg8 : FVec F S128x64 .f32) (main_arg9 : FVec F S64 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S600000 .f32 := Host.absf main_arg3
  let main_cst_0 : FVec F S_ .f32 := constant S_ .f32 0x7F800000#32
  let main_v5 : FVec F S600000 .f32 := broadcastInDim S600000 ![] bcast_S_S600000 main_cst_0
  let main_v6 : IVec S600000 1 := cmpf .olt main_v4 main_v5
  let main_c_1 : IVec S_ 1 := constantI S_ 1 1#1
  let main_v7 : IVec S_ 1 := (fun x v => Host.reduce IntOp.andi x v reducesTo_S600000_S_d0 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg5
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_arg6 main_arg7 main_arg8 main_arg9 main_v13 main_v16
-- ==== Kernel.lean ====
abbrev S100000x128 : Shape := ⟨2, ![100000, 128]⟩
abbrev S2x600000 : Shape := ⟨2, ![2, 600000]⟩
abbrev S100000 : Shape := ⟨1, ![100000]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S700000 : Shape := ⟨1, ![700000]⟩
abbrev S_ : Shape := ⟨0, ![]⟩
abbrev S700000x1 : Shape := ⟨2, ![700000, 1]⟩
abbrev S10000x128 : Shape := ⟨2, ![10000, 128]⟩
abbrev S700000x128 : Shape := ⟨2, ![700000, 128]⟩
abbrev S1x128 : Shape := ⟨2, ![1, 128]⟩
abbrev S100000x64 : Shape := ⟨2, ![100000, 64]⟩
abbrev S10000x64 : Shape := ⟨2, ![10000, 64]⟩
abbrev S700000x64 : Shape := ⟨2, ![700000, 64]⟩
abbrev S1x64 : Shape := ⟨2, ![1, 64]⟩
abbrev S100000x1 : Shape := ⟨2, ![100000, 1]⟩
abbrev S64x64 : Shape := ⟨2, ![64, 64]⟩
abbrev S64x1 : Shape := ⟨2, ![64, 1]⟩

abbrev nBuf : Space → Nat
  | .hbm => 131
  | .vmem => 36
  | .smem => 0
  | _ => 0

abbrev hbmTy0_0 (i : Nat) : BufTy := match i % 128 with
  | 0 => ⟨S100000x128, .f32⟩
  | 1 => ⟨S2x600000, .i32⟩
  | 2 => ⟨S100000, .i32⟩
  | 3 => ⟨S600000, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S1x600000, .i32⟩
  | 11 => ⟨S600000, .i32⟩
  | 12 => ⟨S100000, .i32⟩
  | 13 => ⟨S700000, .i32⟩
  | 14 => ⟨S1x600000, .i32⟩
  | 15 => ⟨S600000, .i32⟩
  | 16 => ⟨S100000, .i32⟩
  | 17 => ⟨S700000, .i32⟩
  | 18 => ⟨S_, .f32⟩
  | 19 => ⟨S100000, .f32⟩
  | 20 => ⟨S700000, .f32⟩
  | 21 => ⟨S_, .f32⟩
  | 22 => ⟨S100000, .f32⟩
  | 23 => ⟨S700000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .i1⟩
  | 31 => ⟨S_, .f32⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S700000, .i32⟩
  | 42 => ⟨S700000, .i1⟩
  | 43 => ⟨S_, .i32⟩
  | 44 => ⟨S700000, .i32⟩
  | 45 => ⟨S700000, .i32⟩
  | 46 => ⟨S700000, .i32⟩
  | 47 => ⟨S700000x1, .i32⟩
  | 48 => ⟨S700000, .f32⟩
  | 49 => ⟨S700000, .f32⟩
  | 50 => ⟨S_, .i32⟩
  | 51 => ⟨S700000, .i32⟩
  | 52 => ⟨S700000, .i1⟩
  | 53 => ⟨S_, .i32⟩
  | 54 => ⟨S700000, .i32⟩
  | 55 => ⟨S700000, .i32⟩
  | 56 => ⟨S700000, .i32⟩
  | 57 => ⟨S700000x1, .i32⟩
  | 58 => ⟨S700000, .f32⟩
  | 59 => ⟨S700000, .f32⟩
  | 60 => ⟨S100000x128, .f32⟩
  | 61 => ⟨S_, .i32⟩
  | 62 => ⟨S700000, .i32⟩
  | 63 => ⟨S700000, .i1⟩
  | 64 => ⟨S_, .i32⟩
  | 65 => ⟨S700000, .i32⟩
  | 66 => ⟨S700000, .i32⟩
  | 67 => ⟨S700000, .i32⟩
  | 68 => ⟨S700000x1, .i32⟩
  | 69 => ⟨S700000x128, .f32⟩
  | 70 => ⟨S700000x1, .f32⟩
  | 71 => ⟨S700000x128, .f32⟩
  | 72 => ⟨S700000x128, .f32⟩
  | 73 => ⟨S_, .f32⟩
  | 74 => ⟨S100000x128, .f32⟩
  | 75 => ⟨S700000x1, .i32⟩
  | 76 => ⟨S100000x128, .f32⟩
  | 77 => ⟨S100000x128, .f32⟩
  | 78 => ⟨S100000x128, .f32⟩
  | 79 => ⟨S_, .i32⟩
  | 80 => ⟨S700000, .i32⟩
  | 81 => ⟨S700000, .i1⟩
  | 82 => ⟨S_, .i32⟩
  | 83 => ⟨S700000, .i32⟩
  | 84 => ⟨S700000, .i32⟩
  | 85 => ⟨S700000, .i32⟩
  | 86 => ⟨S700000x1, .i32⟩
  | 87 => ⟨S700000x128, .f32⟩
  | 88 => ⟨S700000x1, .f32⟩
  | 89 => ⟨S700000x128, .f32⟩
  | 90 => ⟨S700000x128, .f32⟩
  | 91 => ⟨S_, .f32⟩
  | 92 => ⟨S100000x128, .f32⟩
  | 93 => ⟨S700000x1, .i32⟩
  | 94 => ⟨S100000x128, .f32⟩
  | 95 => ⟨S100000x128, .f32⟩
  | 96 => ⟨S100000x64, .f32⟩
  | 97 => ⟨S_, .i32⟩
  | 98 => ⟨S700000, .i32⟩
  | 99 => ⟨S700000, .i1⟩
  | 100 => ⟨S_, .i32⟩
  | 101 => ⟨S700000, .i32⟩
  | 102 => ⟨S700000, .i32⟩
  | 103 => ⟨S700000, .i32⟩
  | 104 => ⟨S700000x1, .i32⟩
  | 105 => ⟨S700000x64, .f32⟩
  | 106 => ⟨S700000x1, .f32⟩
  | 107 => ⟨S700000x64, .f32⟩
  | 108 => ⟨S700000x64, .f32⟩
  | 109 => ⟨S_, .f32⟩
  | 110 => ⟨S100000x64, .f32⟩
  | 111 => ⟨S700000x1, .i32⟩
  | 112 => ⟨S100000x64, .f32⟩
  | 113 => ⟨S100000x64, .f32⟩
  | 114 => ⟨S64, .i32⟩
  | 115 => ⟨S100000x1, .i32⟩
  | 116 => ⟨S1x64, .i32⟩
  | 117 => ⟨S100000x64, .i32⟩
  | 118 => ⟨S100000x64, .i32⟩
  | 119 => ⟨S100000x64, .i1⟩
  | 120 => ⟨S100000x64, .bf16⟩
  | 121 => ⟨S64x64, .f32⟩
  | 122 => ⟨S100000x64, .f32⟩
  | 123 => ⟨S_, .f32⟩
  | 124 => ⟨S64, .f32⟩
  | 125 => ⟨S_, .f32⟩
  | 126 => ⟨S64, .f32⟩
  | 127 => ⟨S64, .f32⟩
  | _ => ⟨S100000x128, .f32⟩

abbrev hbmTy0_1 (i : Nat) : BufTy := match i % 128 with
  | 0 => ⟨S64x1, .f32⟩
  | 1 => ⟨S64x64, .f32⟩
  | 2 => ⟨S64x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | .local _ .vmem, ⟨0, _⟩ => ⟨S10000x128, .f32⟩
  | .local _ .vmem, ⟨1, _⟩ => ⟨S10000x128, .f32⟩
  | .local _ .vmem, ⟨2, _⟩ => ⟨S128x128, .f32⟩
  | .local _ .vmem, ⟨3, _⟩ => ⟨S10000x128, .f32⟩
  | .local _ .vmem, ⟨4, _⟩ => ⟨S10000x128, .f32⟩
  | .local _ .vmem, ⟨5, _⟩ => ⟨S10000x128, .f32⟩
  | .local _ .vmem, ⟨6, _⟩ => ⟨S10000x128, .f32⟩
  | .local _ .vmem, ⟨7, _⟩ => ⟨S128, .f32⟩
  | .local _ .vmem, ⟨8, _⟩ => ⟨S10000x128, .f32⟩
  | .local _ .vmem, ⟨9, _⟩ => ⟨S10000x128, .f32⟩
  | .local _ .vmem, ⟨10, _⟩ => ⟨S10000x128, .f32⟩
  | .local _ .vmem, ⟨11, _⟩ => ⟨S10000x128, .f32⟩
  | .local _ .vmem, ⟨12, _⟩ => ⟨S128x128, .f32⟩
  | .local _ .vmem, ⟨13, _⟩ => ⟨S10000x128, .f32⟩
  | .local _ .vmem, ⟨14, _⟩ => ⟨S10000x128, .f32⟩
  | .local _ .vmem, ⟨15, _⟩ => ⟨S10000x128, .f32⟩
  | .local _ .vmem, ⟨16, _⟩ => ⟨S10000x128, .f32⟩
  | .local _ .vmem, ⟨17, _⟩ => ⟨S128, .f32⟩
  | .local _ .vmem, ⟨18, _⟩ => ⟨S10000x128, .f32⟩
  | .local _ .vmem, ⟨19, _⟩ => ⟨S10000x128, .f32⟩
  | .local _ .vmem, ⟨20, _⟩ => ⟨S10000x128, .f32⟩
  | .local _ .vmem, ⟨21, _⟩ => ⟨S10000x128, .f32⟩
  | .local _ .vmem, ⟨22, _⟩ => ⟨S128x64, .f32⟩
  | .local _ .vmem, ⟨23, _⟩ => ⟨S10000x64, .f32⟩
  | .local _ .vmem, ⟨24, _⟩ => ⟨S10000x64, .f32⟩
  | .local _ .vmem, ⟨25, _⟩ => ⟨S10000x64, .f32⟩
  | .local _ .vmem, ⟨26, _⟩ => ⟨S10000x64, .f32⟩
  | .local _ .vmem, ⟨27, _⟩ => ⟨S64, .f32⟩
  | .local _ .vmem, ⟨28, _⟩ => ⟨S10000x64, .f32⟩
  | .local _ .vmem, ⟨29, _⟩ => ⟨S10000x64, .f32⟩
  | .local _ .vmem, ⟨30, _⟩ => ⟨S10000x64, .f32⟩
  | .local _ .vmem, ⟨31, _⟩ => ⟨S10000x64, .f32⟩
  | .local _ .vmem, ⟨32, _⟩ => ⟨S10000x64, .bf16⟩
  | .local _ .vmem, ⟨33, _⟩ => ⟨S10000x64, .bf16⟩
  | .local _ .vmem, ⟨34, _⟩ => ⟨S64x64, .f32⟩
  | .local _ .vmem, ⟨35, _⟩ => ⟨S64x64, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | _, _ => false

abbrev semScoped : Fin 0 → Bool
  | ⟨_, h⟩ => absurd h (Nat.not_lt_zero _)

abbrev dmaSemScoped : Fin 35 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | _ => false

abbrev sig : RefSig :=
  ofTc nBuf bufTy 0 35 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_c_11 : Ref sig .tc := ⟨.hbm, 79, rfl⟩
abbrev main_v52 : Ref sig .tc := ⟨.hbm, 80, rfl⟩
abbrev main_v53 : Ref sig .tc := ⟨.hbm, 81, rfl⟩
abbrev main_c_12 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_cst_13 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_c_14 : Ref sig .tc := ⟨.hbm, 97, rfl⟩
abbrev main_v67 : Ref sig .tc := ⟨.hbm, 98, rfl⟩
abbrev main_v68 : Ref sig .tc := ⟨.hbm, 99, rfl⟩
abbrev main_c_15 : Ref sig .tc := ⟨.hbm, 100, rfl⟩
abbrev main_v69 : Ref sig .tc := ⟨.hbm, 101, rfl⟩
abbrev main_v70 : Ref sig .tc := ⟨.hbm, 102, rfl⟩
abbrev main_v71 : Ref sig .tc := ⟨.hbm, 103, rfl⟩
abbrev main_v72 : Ref sig .tc := ⟨.hbm, 104, rfl⟩
abbrev main_v73 : Ref sig .tc := ⟨.hbm, 105, rfl⟩
abbrev main_v74 : Ref sig .tc := ⟨.hbm, 106, rfl⟩
abbrev main_v75 : Ref sig .tc := ⟨.hbm, 107, rfl⟩
abbrev main_v76 : Ref sig .tc := ⟨.hbm, 108, rfl⟩
abbrev main_cst_16 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_v84 : Ref sig .tc := ⟨.hbm, 117, rfl⟩
abbrev main_v85 : Ref sig .tc := ⟨.hbm, 118, rfl⟩
abbrev main_v86 : Ref sig .tc := ⟨.hbm, 119, rfl⟩
abbrev main_v87 : Ref sig .tc := ⟨.hbm, 120, rfl⟩
abbrev main_v88 : Ref sig .tc := ⟨.hbm, 121, rfl⟩
abbrev main_v89 : Ref sig .tc := ⟨.hbm, 122, rfl⟩
abbrev main_cst_17 : Ref sig .tc := ⟨.hbm, 123, rfl⟩
abbrev main_v90 : Ref sig .tc := ⟨.hbm, 124, rfl⟩
abbrev main_cst_18 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc4_stg0_0 : Ref sig .tc := ⟨.vmem, 20, rfl⟩
abbrev cc4_stg0_1 : Ref sig .tc := ⟨.vmem, 21, rfl⟩
abbrev cc4_stg1_0 : Ref sig .tc := ⟨.vmem, 22, rfl⟩
abbrev cc4_stg2_0 : Ref sig .tc := ⟨.vmem, 23, rfl⟩
abbrev cc4_stg2_1 : Ref sig .tc := ⟨.vmem, 24, rfl⟩
abbrev cc5_stg0_0 : Ref sig .tc := ⟨.vmem, 25, rfl⟩
abbrev cc5_stg0_1 : Ref sig .tc := ⟨.vmem, 26, rfl⟩
abbrev cc5_stg1_0 : Ref sig .tc := ⟨.vmem, 27, rfl⟩
abbrev cc5_stg2_0 : Ref sig .tc := ⟨.vmem, 28, rfl⟩
abbrev cc5_stg2_1 : Ref sig .tc := ⟨.vmem, 29, rfl⟩
abbrev cc6_stg0_0 : Ref sig .tc := ⟨.vmem, 30, rfl⟩
abbrev cc6_stg0_1 : Ref sig .tc := ⟨.vmem, 31, rfl⟩
abbrev cc6_stg1_0 : Ref sig .tc := ⟨.vmem, 32, rfl⟩
abbrev cc6_stg1_1 : Ref sig .tc := ⟨.vmem, 33, rfl⟩
abbrev cc6_stg2_0 : Ref sig .tc := ⟨.vmem, 34, rfl⟩
abbrev cc6_scratch0 : Ref sig .tc := ⟨.vmem, 35, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19
abbrev cc4_sem0_0 : DmaSem sig := 20
abbrev cc4_sem0_1 : DmaSem sig := 21
abbrev cc4_sem1_0 : DmaSem sig := 22
abbrev cc4_sem2_0 : DmaSem sig := 23
abbrev cc4_sem2_1 : DmaSem sig := 24
abbrev cc5_sem0_0 : DmaSem sig := 25
abbrev cc5_sem0_1 : DmaSem sig := 26
abbrev cc5_sem1_0 : DmaSem sig := 27
abbrev cc5_sem2_0 : DmaSem sig := 28
abbrev cc5_sem2_1 : DmaSem sig := 29
abbrev cc6_sem0_0 : DmaSem sig := 30
abbrev cc6_sem0_1 : DmaSem sig := 31
abbrev cc6_sem1_0 : DmaSem sig := 32
abbrev cc6_sem1_1 : DmaSem sig := 33
abbrev cc6_sem2_0 : DmaSem sig := 34

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 1 → Nat :=
  let arg0 : BitVec 32 := BitVec.ofNat 32 (i 0).val
  let c0_i32 : BitVec 32 := 0#32
  let c0_i32_0 : BitVec 32 := 0#32
  ![c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x128 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S128x128 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S10000x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![10], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 1 → Nat :=
  let arg0 : BitVec 32 := BitVec.ofNat 32 (i 0).val
  let c0_i32 : BitVec 32 := 0#32
  let c0_i32_0 : BitVec 32 := 0#32
  ![c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S10000x128 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S128 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S10000x128 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev grid4 : Pipeline.Grid := ⟨1, ![10], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S10000x128 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S128x64 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 2 → Memref sig .tc .vmem S10000x64 .f32 := fun | 0 => Memref.whole cc4_stg2_0 | 1 => Memref.whole cc4_stg2_1 | ⟨_ + 2, h⟩ => absurd h (Nat.not_lt.2 (Nat.le_add_left _ _))
abbrev sem4_2 : Fin 2 → DmaSem sig := fun | 0 => cc4_sem2_0 | 1 => cc4_sem2_1 | ⟨_ + 2, h⟩ => absurd h (Nat.not_lt.2 (Nat.le_add_left _ _))
abbrev reads4_2 : Fin grid4.rank → Bool := ![true]

abbrev grid5 : Pipeline.Grid := ⟨1, ![10], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 1 → Nat :=
  let arg0 : BitVec 32 := BitVec.ofNat 32 (i 0).val
  let c0_i32 : BitVec 32 := 0#32
  let c0_i32_0 : BitVec 32 := 0#32
  ![c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S10000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 1 → Memref sig .tc .vmem S64 .f32 := fun | 0 => Memref.whole cc5_stg1_0 | ⟨_ + 1, h⟩ => absurd h (Nat.not_lt.2 (Nat.le_add_left _ _))
abbrev sem5_1 : Fin 1 → DmaSem sig := fun | 0 => cc5_sem1_0 | ⟨_ + 1, h⟩ => absurd h (Nat.not_lt.2 (Nat.le_add_left _ _))
abbrev reads5_1 : Fin grid5.rank → Bool := ![false]

abbrev stage5_2 : Fin 2 → Memref sig .tc .vmem S10000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev grid6 : Pipeline.Grid := ⟨1, ![10], ![false]⟩

def k6_cond2 (i : grid6.Coords) : BitVec 1 :=
  let arg0 : BitVec 32 := BitVec.ofNat 32 (i 0).val
  let c9_i32 : BitVec 32 := 9#32
  let v14 : BitVec 1 := Scalar.cmpi .eq arg0 c9_i32
  let v15 : BitVec 32 := Scalar.extui v14
  let c0_i32_8 : BitVec 32 := 0#32
  let v16 : BitVec 1 := Scalar.cmpi .ne v15 c0_i32_8
  v16

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S10000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S10000x64 .bf16 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S100000 : S_.BroadcastsInDim S100000 (![] : Fin 0 → Fin S100000.rank)
  bcast_S700000_S700000x1_0 : S700000.BroadcastsInDim S700000x1 (![0] : Fin 1 → Fin S700000x1.rank)
  bcast_S_S700000 : S_.BroadcastsInDim S700000 (![] : Fin 0 → Fin S700000.rank)
  inb_S10000x128_S10000x128_0_0 : ∀ a, (![0, 0] : Fin 2 → Nat) a + S10000x128.size a ≤ S10000x128.size a
  h_S10000x128 : 0 < S10000x128.numel
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  shapeCasts_S10000x128_S10000x128 : S10000x128.ShapeCasts S10000x128
  inb_S128_S128_0 : ∀ a, (![0] : Fin 1 → Nat) a + S128.size a ≤ S128.size a
  h_S128 : 0 < S128.numel
  shapeCasts_S128_S1x128 : S128.ShapeCasts S1x128
  broadcasts_S1x128_S10000x128 : S1x128.Broadcasts S10000x128
  inb_S128x64_S128x64_0_0 : ∀ a, (![0, 0] : Fin 2 → Nat) a + S128x64.size a ≤ S128x64.size a
  h_S128x64 : 0 < S128x64.numel
  inb_S10000x64_S10000x64_0_0 : ∀ a, (![0, 0] : Fin 2 → Nat) a + S10000x64.size a ≤ S10000x64.size a
  h_S10000x64 : 0 < S10000x64.numel
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  shapeCasts_S10000x64_S10000x64 : S10000x64.ShapeCasts S10000x64
  inb_S64_S64_0 : ∀ a, (![0] : Fin 1 → Nat) a + S64.size a ≤ S64.size a
  h_S64 : 0 < S64.numel
  shapeCasts_S64_S1x64 : S64.ShapeCasts S1x64
  broadcasts_S1x64_S10000x64 : S1x64.Broadcasts S10000x64
  bcast_S100000_S100000x1_0 : S100000.BroadcastsInDim S100000x1 (![0] : Fin 1 → Fin S100000x1.rank)
  bcast_S64_S1x64_1 : S64.BroadcastsInDim S1x64 (![1] : Fin 1 → Fin S1x64.rank)
  bcast_S100000x1_S100000x64_0_1 : S100000x1.BroadcastsInDim S100000x64 (![0, 1] : Fin 2 → Fin S100000x64.rank)
  bcast_S1x64_S100000x64_0_1 : S1x64.BroadcastsInDim S100000x64 (![0, 1] : Fin 2 → Fin S100000x64.rank)
  inb_S64x64_S64x64_0_0 : ∀ a, (![0, 0] : Fin 2 → Nat) a + S64x64.size a ≤ S64x64.size a
  h_S64x64 : 0 < S64x64.numel
  shapeCasts_S64x64_S64x64 : S64x64.ShapeCasts S64x64
  reducesTo_S100000x64_S64_d0 : S100000x64.ReducesTo [0] S64
  h_S_ : 0 < S_.numel
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S10000x128_S128x128_S10000x128_1_0_0_1_n_n_wf : DotDims.WF S10000x128 S128x128 S10000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S10000x128_S128x64_S10000x64_1_0_0_1_n_n_wf : DotDims.WF S10000x128 S128x64 S10000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  dot_S10000x64_S10000x64_S64x64_0_0_1_1_n_n_wf : DotDims.WF S10000x64 S10000x64 S64x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x128.size a ≤ S100000x128.size a
  hwx0_0 : ∀ i : grid0.Coords, EltTy.bits .f32 = 32 ∨ (Rect.block (s := S100000x128) S10000x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S100000x128.size a
  hwx0_2 : ∀ i : grid0.Coords, EltTy.bits .f32 = 32 ∨ (Rect.block (s := S100000x128) S10000x128.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x128.size a ≤ S100000x128.size a
  hwx1_0 : ∀ i : grid1.Coords, EltTy.bits .f32 = 32 ∨ (Rect.block (s := S100000x128) S10000x128.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S128.size a ≤ S128.size a
  hwx1_1 : ∀ i : grid1.Coords, EltTy.bits .f32 = 32 ∨ (Rect.block (s := S128) S128.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x128.size a ≤ S100000x128.size a
  hwx1_2 : ∀ i : grid1.Coords, EltTy.bits .f32 = 32 ∨ (Rect.block (s := S100000x128) S10000x128.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x128.size a ≤ S100000x128.size a
  hwx2_0 : ∀ i : grid2.Coords, EltTy.bits .f32 = 32 ∨ (Rect.block (s := S100000x128) S10000x128.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S128x128.size a ≤ S128x128.size a
  hwx2_1 : ∀ i : grid2.Coords, EltTy.bits .f32 = 32 ∨ (Rect.block (s := S128x128) S128x128.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S10000x128.size a ≤ S100000x128.size a
  hwx2_2 : ∀ i : grid2.Coords, EltTy.bits .f32 = 32 ∨ (Rect.block (s := S100000x128) S10000x128.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S10000x128.size a ≤ S100000x128.size a
  hwx3_0 : ∀ i : grid3.Coords, EltTy.bits .f32 = 32 ∨ (Rect.block (s := S100000x128) S10000x128.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S128.size a ≤ S128.size a
  hwx3_1 : ∀ i : grid3.Coords, EltTy.bits .f32 = 32 ∨ (Rect.block (s := S128) S128.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S10000x128.size a ≤ S100000x128.size a
  hwx3_2 : ∀ i : grid3.Coords, EltTy.bits .f32 = 32 ∨ (Rect.block (s := S100000x128) S10000x128.size (cc3_transform_2 i) (hinb3_2 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S10000x128.size a ≤ S100000x128.size a
  hwx4_0 : ∀ i : grid4.Coords, EltTy.bits .f32 = 32 ∨ (Rect.block (s := S100000x128) S10000x128.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S128x64.size a ≤ S128x64.size a
  hwx4_1 : ∀ i : grid4.Coords, EltTy.bits .f32 = 32 ∨ (Rect.block (s := S128x64) S128x64.size (cc4_transform_1 i) (hinb4_1 i)).WholeWords (EltTy.packing .f32)
  hstage4_2 : ∀ j, (stage4_2 j).IsWhole
  nbuf4_2 : grid4.bufCount reads4_2 false = 2
  hreads4_2 : ∀ i i' : grid4.Coords, (∀ a, reads4_2 a = true → i a = i' a) → cc4_transform_2 i = cc4_transform_2 i'
  hinb4_2 : ∀ (i : grid4.Coords) a, (cc4_transform_2 i a + 1) * S10000x64.size a ≤ S100000x64.size a
  hwx4_2 : ∀ i : grid4.Coords, EltTy.bits .f32 = 32 ∨ (Rect.block (s := S100000x64) S10000x64.size (cc4_transform_2 i) (hinb4_2 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S10000x64.size a ≤ S100000x64.size a
  hwx5_0 : ∀ i : grid5.Coords, EltTy.bits .f32 = 32 ∨ (Rect.block (s := S100000x64) S10000x64.size (cc5_transform_0 i) (hinb5_0 i)).WholeWords (EltTy.packing .f32)
  hstage5_1 : ∀ j, (stage5_1 j).IsWhole
  nbuf5_1 : grid5.bufCount reads5_1 true = 1
  hreads5_1 : ∀ i i' : grid5.Coords, (∀ a, reads5_1 a = true → i a = i' a) → cc5_transform_1 i = cc5_transform_1 i'
  hinb5_1 : ∀ (i : grid5.Coords) a, (cc5_transform_1 i a + 1) * S64.size a ≤ S64.size a
  hwx5_1 : ∀ i : grid5.Coords, EltTy.bits .f32 = 32 ∨ (Rect.block (s := S64) S64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S10000x64.size a ≤ S100000x64.size a
  hwx5_2 : ∀ i : grid5.Coords, EltTy.bits .f32 = 32 ∨ (Rect.block (s := S100000x64) S10000x64.size (cc5_transform_2 i) (hinb5_2 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S10000x64.size a ≤ S100000x64.size a
  hwx6_0 : ∀ i : grid6.Coords, EltTy.bits .f32 = 32 ∨ (Rect.block (s := S100000x64) S10000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S10000x64.size a ≤ S100000x64.size a
  hwx6_1 : ∀ i : grid6.Coords, EltTy.bits .bf16 = 32 ∨ (Rect.block (s := S100000x64) S10000x64.size (cc6_transform_1 i) (hinb6_1 i)).WholeWords (EltTy.packing .bf16)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S10000x128_S128x64_S10000x64_1_0_0_1_n_n : DotDims S10000x128 S128x64 S10000x64 where
  lhsContracting := [1]
  rhsContracting := [0]
  lhsNonContracting := [0]
  rhsNonContracting := [1]
  lhsBatch := []
  rhsBatch := []
  wf := dot_S10000x128_S128x64_S10000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def dot_S10000x64_S10000x64_S64x64_0_0_1_1_n_n : DotDims S10000x64 S10000x64 S64x64 where
  lhsContracting := [0]
  rhsContracting := [0]
  lhsNonContracting := [1]
  rhsNonContracting := [1]
  lhsBatch := []
  rhsBatch := []
  wf := dot_S10000x64_S10000x64_S64x64_0_0_1_1_n_n_wf

abbrev win0_0 : Pipeline.Window sig grid0 :=
  Pipeline.Window.ofSpec (Memref.whole main_arg0) S10000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg4) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v36) S10000x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v49) S10000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S10000x128.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S10000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg6) S128x128.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v51) S10000x128.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v64) S10000x128.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_arg7) S128.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v65) S10000x128.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

abbrev win4_0 : Pipeline.Window sig grid4 :=
  Pipeline.Window.ofSpec (Memref.whole main_v65) S10000x128.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_arg8) S128x64.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v66) S10000x64.size cc4_transform_2 reads4_2 true false 2 stage4_2 sem4_2
    hrank4 hreads4_2 hinb4_2 nbuf4_2 (Memref.isWhole_whole _) hwx4_2 hstage4_2

abbrev win4 : Fin 3 → Pipeline.Window sig grid4 := fun | 0 => win4_0 | 1 => win4_1 | 2 => win4_2 | ⟨_ + 3, h⟩ => absurd h (Nat.not_lt.2 (Nat.le_add_left _ _))
abbrev spec4 : Fin 3 → Pipeline.WinSpec sig grid4.rank := fun w => (win4 w).toWinSpec

abbrev win5_0 : Pipeline.Window sig grid5 :=
  Pipeline.Window.ofSpec (Memref.whole main_v79) S10000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_arg9) S64.size cc5_transform_1 reads5_1 false true 1 stage5_1 sem5_1
    hrank5 hreads5_1 hinb5_1 nbuf5_1 (Memref.isWhole_whole _) hwx5_1 hstage5_1

abbrev win5_2 : Pipeline.Window sig grid5 :=
  Pipeline.Window.ofSpec (Memref.whole main_v80) S10000x64.size cc5_transform_2 reads5_2 true false 2 stage5_2 sem5_2
    hrank5 hreads5_2 hinb5_2 nbuf5_2 (Memref.isWhole_whole _) hwx5_2 hstage5_2

abbrev win5 : Fin 3 → Pipeline.Window sig grid5 := fun | 0 => win5_0 | 1 => win5_1 | 2 => win5_2 | ⟨_ + 3, h⟩ => absurd h (Nat.not_lt.2 (Nat.le_add_left _ _))
abbrev spec5 : Fin 3 → Pipeline.WinSpec sig grid5.rank := fun w => (win5 w).toWinSpec

abbrev win6_0 : Pipeline.Window sig grid6 :=
  Pipeline.Window.ofSpec (Memref.whole main_v80) S10000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v87) S10000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_v88) S64x64.size cc6_transform_2 reads6_2 true true 1 stage6_2 sem6_2
    hrank6 hreads6_2 hinb6_2 nbuf6_2 (Memref.isWhole_whole _) hwx6_2 hstage6_2

abbrev win6 : Fin 3 → Pipeline.Window sig grid6 := fun | 0 => win6_0 | 1 => win6_1 | 2 => win6_2 | ⟨_ + 3, h⟩ => absurd h (Nat.not_lt.2 (Nat.le_add_left _ _))
abbrev spec6 : Fin 3 → Pipeline.WinSpec sig grid6.rank := fun w => (win6 w).toWinSpec

abbrev idle6 : Fin 3 → grid6.Coords → Bool := fun | 0 => fun _ => false | 1 => fun _ => false | 2 => fun i => !(k6_cond2 i == 1#1) | ⟨_ + 3, h⟩ => absurd h (Nat.not_lt.2 (Nat.le_add_left _ _))

class Facts : Prop extends Facts₀ where

variable [Facts]
-- ==== ReferenceIdeal.lean ====
abbrev S100000x128 : Shape := ⟨2, ![100000, 128]⟩
abbrev S2x600000 : Shape := ⟨2, ![2, 600000]⟩
abbrev S100000 : Shape := ⟨1, ![100000]⟩
abbrev S600000 : Shape := ⟨1, ![600000]⟩
abbrev S128x128 : Shape := ⟨2, ![128, 128]⟩
abbrev S128 : Shape := ⟨1, ![128]⟩
abbrev S128x64 : Shape := ⟨2, ![128, 64]⟩
abbrev S64 : Shape := ⟨1, ![64]⟩
abbrev S1x600000 : Shape := ⟨2, ![1, 600000]⟩
abbrev S700000 : Shape := ⟨1, ![700000]⟩
abbrev S_ : Shape := ⟨0, ![]⟩
abbrev S700000x1 : Shape := ⟨2, ![700000, 1]⟩
abbrev S700000x128 : Shape := ⟨2, ![700000, 128]⟩
abbrev S1x128 : Shape := ⟨2, ![1, 128]⟩
abbrev S100000x64 : Shape := ⟨2, ![100000, 64]⟩
abbrev S700000x64 : Shape := ⟨2, ![700000, 64]⟩
abbrev S1x64 : Shape := ⟨2, ![1, 64]⟩
abbrev S64x64 : Shape := ⟨2, ![64, 64]⟩
abbrev S100000x1 : Shape := ⟨2, ![100000, 1]⟩
abbrev S64x1 : Shape := ⟨2, ![64, 1]⟩

abbrev nBuf : Space → Nat
  | .hbm => 142
  | .vmem => 0
  | .smem => 0
  | _ => 0

abbrev hbmTy0_0 (i : Nat) : BufTy := match i % 128 with
  | 0 => ⟨S100000x128, .f32⟩
  | 1 => ⟨S2x600000, .i32⟩
  | 2 => ⟨S100000, .i32⟩
  | 3 => ⟨S600000, .f32⟩
  | 4 => ⟨S128x128, .f32⟩
  | 5 => ⟨S128, .f32⟩
  | 6 => ⟨S128x128, .f32⟩
  | 7 => ⟨S128, .f32⟩
  | 8 => ⟨S128x64, .f32⟩
  | 9 => ⟨S64, .f32⟩
  | 10 => ⟨S1x600000, .i32⟩
  | 11 => ⟨S600000, .i32⟩
  | 12 => ⟨S100000, .i32⟩
  | 13 => ⟨S700000, .i32⟩
  | 14 => ⟨S1x600000, .i32⟩
  | 15 => ⟨S600000, .i32⟩
  | 16 => ⟨S100000, .i32⟩
  | 17 => ⟨S700000, .i32⟩
  | 18 => ⟨S_, .f32⟩
  | 19 => ⟨S100000, .f32⟩
  | 20 => ⟨S700000, .f32⟩
  | 21 => ⟨S_, .f32⟩
  | 22 => ⟨S100000, .f32⟩
  | 23 => ⟨S700000x1, .i32⟩
  | 24 => ⟨S100000, .f32⟩
  | 25 => ⟨S_, .f32⟩
  | 26 => ⟨S100000, .f32⟩
  | 27 => ⟨S100000, .i1⟩
  | 28 => ⟨S_, .f32⟩
  | 29 => ⟨S100000, .f32⟩
  | 30 => ⟨S100000, .i1⟩
  | 31 => ⟨S_, .f32⟩
  | 32 => ⟨S_, .f32⟩
  | 33 => ⟨S100000, .f32⟩
  | 34 => ⟨S100000, .f32⟩
  | 35 => ⟨S100000, .f32⟩
  | 36 => ⟨S_, .f32⟩
  | 37 => ⟨S_, .f32⟩
  | 38 => ⟨S100000, .f32⟩
  | 39 => ⟨S100000, .f32⟩
  | 40 => ⟨S_, .i32⟩
  | 41 => ⟨S700000, .i32⟩
  | 42 => ⟨S700000, .i1⟩
  | 43 => ⟨S_, .i32⟩
  | 44 => ⟨S700000, .i32⟩
  | 45 => ⟨S700000, .i32⟩
  | 46 => ⟨S700000, .i32⟩
  | 47 => ⟨S700000x1, .i32⟩
  | 48 => ⟨S700000, .f32⟩
  | 49 => ⟨S700000, .f32⟩
  | 50 => ⟨S_, .i32⟩
  | 51 => ⟨S700000, .i32⟩
  | 52 => ⟨S700000, .i1⟩
  | 53 => ⟨S_, .i32⟩
  | 54 => ⟨S700000, .i32⟩
  | 55 => ⟨S700000, .i32⟩
  | 56 => ⟨S700000, .i32⟩
  | 57 => ⟨S700000x1, .i32⟩
  | 58 => ⟨S700000, .f32⟩
  | 59 => ⟨S700000, .f32⟩
  | 60 => ⟨S100000x128, .f32⟩
  | 61 => ⟨S_, .i32⟩
  | 62 => ⟨S700000, .i32⟩
  | 63 => ⟨S700000, .i1⟩
  | 64 => ⟨S_, .i32⟩
  | 65 => ⟨S700000, .i32⟩
  | 66 => ⟨S700000, .i32⟩
  | 67 => ⟨S700000, .i32⟩
  | 68 => ⟨S700000x1, .i32⟩
  | 69 => ⟨S700000x128, .f32⟩
  | 70 => ⟨S700000x1, .f32⟩
  | 71 => ⟨S700000x128, .f32⟩
  | 72 => ⟨S700000x128, .f32⟩
  | 73 => ⟨S_, .f32⟩
  | 74 => ⟨S100000x128, .f32⟩
  | 75 => ⟨S700000x1, .i32⟩
  | 76 => ⟨S100000x128, .f32⟩
  | 77 => ⟨S1x128, .f32⟩
  | 78 => ⟨S100000x128, .f32⟩
  | 79 => ⟨S100000x128, .f32⟩
  | 80 => ⟨S_, .f32⟩
  | 81 => ⟨S100000x128, .f32⟩
  | 82 => ⟨S100000x128, .f32⟩
  | 83 => ⟨S100000x128, .f32⟩
  | 84 => ⟨S_, .i32⟩
  | 85 => ⟨S700000, .i32⟩
  | 86 => ⟨S700000, .i1⟩
  | 87 => ⟨S_, .i32⟩
  | 88 => ⟨S700000, .i32⟩
  | 89 => ⟨S700000, .i32⟩
  | 90 => ⟨S700000, .i32⟩
  | 91 => ⟨S700000x1, .i32⟩
  | 92 => ⟨S700000x128, .f32⟩
  | 93 => ⟨S700000x1, .f32⟩
  | 94 => ⟨S700000x128, .f32⟩
  | 95 => ⟨S700000x128, .f32⟩
  | 96 => ⟨S_, .f32⟩
  | 97 => ⟨S100000x128, .f32⟩
  | 98 => ⟨S700000x1, .i32⟩
  | 99 => ⟨S100000x128, .f32⟩
  | 100 => ⟨S1x128, .f32⟩
  | 101 => ⟨S100000x128, .f32⟩
  | 102 => ⟨S100000x128, .f32⟩
  | 103 => ⟨S_, .f32⟩
  | 104 => ⟨S100000x128, .f32⟩
  | 105 => ⟨S100000x128, .f32⟩
  | 106 => ⟨S100000x64, .f32⟩
  | 107 => ⟨S_, .i32⟩
  | 108 => ⟨S700000, .i32⟩
  | 109 => ⟨S700000, .i1⟩
  | 110 => ⟨S_, .i32⟩
  | 111 => ⟨S700000, .i32⟩
  | 112 => ⟨S700000, .i32⟩
  | 113 => ⟨S700000, .i32⟩
  | 114 => ⟨S700000x1, .i32⟩
  | 115 => ⟨S700000x64, .f32⟩
  | 116 => ⟨S700000x1, .f32⟩
  | 117 => ⟨S700000x64, .f32⟩
  | 118 => ⟨S700000x64, .f32⟩
  | 119 => ⟨S_, .f32⟩
  | 120 => ⟨S100000x64, .f32⟩
  | 121 => ⟨S700000x1, .i32⟩
  | 122 => ⟨S100000x64, .f32⟩
  | 123 => ⟨S1x64, .f32⟩
  | 124 => ⟨S100000x64, .f32⟩
  | 125 => ⟨S100000x64, .f32⟩
  | 126 => ⟨S_, .f32⟩
  | 127 => ⟨S64x64, .f32⟩
  | _ => ⟨S100000x128, .f32⟩

abbrev hbmTy0_1 (i : Nat) : BufTy := match i % 128 with
  | 0 => ⟨S100000x1, .i32⟩
  | 1 => ⟨S64x64, .f32⟩
  | 2 => ⟨S_, .f32⟩
  | 3 => ⟨S100000, .f32⟩
  | 4 => ⟨S_, .f32⟩
  | 5 => ⟨S64, .f32⟩
  | 6 => ⟨S100000x1, .i32⟩
  | 7 => ⟨S64, .f32⟩
  | 8 => ⟨S_, .f32⟩
  | 9 => ⟨S64, .f32⟩
  | 10 => ⟨S64, .f32⟩
  | 11 => ⟨S64x1, .f32⟩
  | 12 => ⟨S64x64, .f32⟩
  | 13 => ⟨S64x64, .f32⟩
  | _ => ⟨S100000x128, .f32⟩

abbrev hbmTy (i : Nat) : BufTy := match i / 128 with
  | 0 => hbmTy0_0 i
  | 1 => hbmTy0_1 i
  | _ => ⟨S100000x128, .f32⟩

abbrev bufTy : (tb : Table) → Fin (tcTables nBuf tb) → BufTy
  | .hbm, ⟨i, _⟩ => hbmTy i
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_cst : Ref sig .tc := ⟨.hbm, 18, rfl⟩
abbrev main_v8 : Ref sig .tc := ⟨.hbm, 19, rfl⟩
abbrev main_v9 : Ref sig .tc := ⟨.hbm, 20, rfl⟩
abbrev main_cst_0 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_cst_1 : Ref sig .tc := ⟨.hbm, 25, rfl⟩
abbrev main_v13 : Ref sig .tc := ⟨.hbm, 26, rfl⟩
abbrev main_v14 : Ref sig .tc := ⟨.hbm, 27, rfl⟩
abbrev main_cst_2 : Ref sig .tc := ⟨.hbm, 28, rfl⟩
abbrev main_v15 : Ref sig .tc := ⟨.hbm, 29, rfl⟩
abbrev main_v16 : Ref sig .tc := ⟨.hbm, 30, rfl⟩
abbrev main_cst_3 : Ref sig .tc := ⟨.hbm, 31, rfl⟩
abbrev main_call0_v0 : Ref sig .tc := ⟨.hbm, 32, rfl⟩
abbrev main_call0_v1 : Ref sig .tc := ⟨.hbm, 33, rfl⟩
abbrev main_v17 : Ref sig .tc := ⟨.hbm, 34, rfl⟩
abbrev main_v18 : Ref sig .tc := ⟨.hbm, 35, rfl⟩
abbrev main_cst_4 : Ref sig .tc := ⟨.hbm, 36, rfl⟩
abbrev main_call1_v0 : Ref sig .tc := ⟨.hbm, 37, rfl⟩
abbrev main_call1_v1 : Ref sig .tc := ⟨.hbm, 38, rfl⟩
abbrev main_v19 : Ref sig .tc := ⟨.hbm, 39, rfl⟩
abbrev main_c : Ref sig .tc := ⟨.hbm, 40, rfl⟩
abbrev main_v20 : Ref sig .tc := ⟨.hbm, 41, rfl⟩
abbrev main_v21 : Ref sig .tc := ⟨.hbm, 42, rfl⟩
abbrev main_c_5 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_c_6 : Ref sig .tc := ⟨.hbm, 50, rfl⟩
abbrev main_v28 : Ref sig .tc := ⟨.hbm, 51, rfl⟩
abbrev main_v29 : Ref sig .tc := ⟨.hbm, 52, rfl⟩
abbrev main_c_7 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_c_8 : Ref sig .tc := ⟨.hbm, 61, rfl⟩
abbrev main_v37 : Ref sig .tc := ⟨.hbm, 62, rfl⟩
abbrev main_v38 : Ref sig .tc := ⟨.hbm, 63, rfl⟩
abbrev main_c_9 : Ref sig .tc := ⟨.hbm, 64, rfl⟩
abbrev main_v39 : Ref sig .tc := ⟨.hbm, 65, rfl⟩
abbrev main_v40 : Ref sig .tc := ⟨.hbm, 66, rfl⟩
abbrev main_v41 : Ref sig .tc := ⟨.hbm, 67, rfl⟩
abbrev main_v42 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_cst_10 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_v52 : Ref sig .tc := ⟨.hbm, 79, rfl⟩
abbrev main_call2_cst : Ref sig .tc := ⟨.hbm, 80, rfl⟩
abbrev main_call2_v0 : Ref sig .tc := ⟨.hbm, 81, rfl⟩
abbrev main_v53 : Ref sig .tc := ⟨.hbm, 82, rfl⟩
abbrev main_v54 : Ref sig .tc := ⟨.hbm, 83, rfl⟩
abbrev main_c_11 : Ref sig .tc := ⟨.hbm, 84, rfl⟩
abbrev main_v55 : Ref sig .tc := ⟨.hbm, 85, rfl⟩
abbrev main_v56 : Ref sig .tc := ⟨.hbm, 86, rfl⟩
abbrev main_c_12 : Ref sig .tc := ⟨.hbm, 87, rfl⟩
abbrev main_v57 : Ref sig .tc := ⟨.hbm, 88, rfl⟩
abbrev main_v58 : Ref sig .tc := ⟨.hbm, 89, rfl⟩
abbrev main_v59 : Ref sig .tc := ⟨.hbm, 90, rfl⟩
abbrev main_v60 : Ref sig .tc := ⟨.hbm, 91, rfl⟩
abbrev main_v61 : Ref sig .tc := ⟨.hbm, 92, rfl⟩
abbrev main_v62 : Ref sig .tc := ⟨.hbm, 93, rfl⟩
abbrev main_v63 : Ref sig .tc := ⟨.hbm, 94, rfl⟩
abbrev main_v64 : Ref sig .tc := ⟨.hbm, 95, rfl⟩
abbrev main_cst_13 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩
abbrev main_v69 : Ref sig .tc := ⟨.hbm, 101, rfl⟩
abbrev main_v70 : Ref sig .tc := ⟨.hbm, 102, rfl⟩
abbrev main_call3_cst : Ref sig .tc := ⟨.hbm, 103, rfl⟩
abbrev main_call3_v0 : Ref sig .tc := ⟨.hbm, 104, rfl⟩
abbrev main_v71 : Ref sig .tc := ⟨.hbm, 105, rfl⟩
abbrev main_v72 : Ref sig .tc := ⟨.hbm, 106, rfl⟩
abbrev main_c_14 : Ref sig .tc := ⟨.hbm, 107, rfl⟩
abbrev main_v73 : Ref sig .tc := ⟨.hbm, 108, rfl⟩
abbrev main_v74 : Ref sig .tc := ⟨.hbm, 109, rfl⟩
abbrev main_c_15 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_cst_16 : Ref sig .tc := ⟨.hbm, 119, rfl⟩
abbrev main_v83 : Ref sig .tc := ⟨.hbm, 120, rfl⟩
abbrev main_v84 : Ref sig .tc := ⟨.hbm, 121, rfl⟩
abbrev main_v85 : Ref sig .tc := ⟨.hbm, 122, rfl⟩
abbrev main_v86 : Ref sig .tc := ⟨.hbm, 123, rfl⟩
abbrev main_v87 : Ref sig .tc := ⟨.hbm, 124, rfl⟩
abbrev main_v88 : Ref sig .tc := ⟨.hbm, 125, rfl⟩
abbrev main_cst_17 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_cst_18 : Ref sig .tc := ⟨.hbm, 130, rfl⟩
abbrev main_v92 : Ref sig .tc := ⟨.hbm, 131, rfl⟩
abbrev main_cst_19 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_cst_20 : Ref sig .tc := ⟨.hbm, 136, rfl⟩
abbrev main_v96 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩

abbrev nD : Nat := 1
abbrev τ : Topo := Topo.v7x

variable {F : FTy → Type} [FloatOps F]

class Facts₀ : Prop where
  slices_S2x600000_S1x600000_0_0 : S2x600000.Slices ![0, 0] S1x600000
  shapeCasts_S1x600000_S600000 : S1x600000.ShapeCasts S600000
  concatenates_S600000_S100000_S700000_d0 : Shape.Concatenates [S600000, S100000] S700000 0
  slices_S2x600000_S1x600000_1_0 : S2x600000.Slices ![1, 0] S1x600000
  bcast_S_S100000 : S_.BroadcastsInDim S100000 (![] : Fin 0 → Fin S100000.rank)
  bcast_S700000_S700000x1_0 : S700000.BroadcastsInDim S700000x1 (![0] : Fin 1 → Fin S700000x1.rank)
  bcast_S_S700000 : S_.BroadcastsInDim S700000 (![] : Fin 0 → Fin S700000.rank)
  bcast_S700000x1_S700000x128_0_1 : S700000x1.BroadcastsInDim S700000x128 (![0, 1] : Fin 2 → Fin S700000x128.rank)
  bcast_S_S100000x128 : S_.BroadcastsInDim S100000x128 (![] : Fin 0 → Fin S100000x128.rank)
  bcast_S128_S1x128_1 : S128.BroadcastsInDim S1x128 (![1] : Fin 1 → Fin S1x128.rank)
  bcast_S1x128_S100000x128_0_1 : S1x128.BroadcastsInDim S100000x128 (![0, 1] : Fin 2 → Fin S100000x128.rank)
  bcast_S700000x1_S700000x64_0_1 : S700000x1.BroadcastsInDim S700000x64 (![0, 1] : Fin 2 → Fin S700000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S64x64 : S_.BroadcastsInDim S64x64 (![] : Fin 0 → Fin S64x64.rank)
  bcast_S100000_S100000x1_0 : S100000.BroadcastsInDim S100000x1 (![0] : Fin 1 → Fin S100000x1.rank)
  bcast_S_S64 : S_.BroadcastsInDim S64 (![] : Fin 0 → Fin S64.rank)
  bcast_S64_S64x1_0 : S64.BroadcastsInDim S64x1 (![0] : Fin 1 → Fin S64x1.rank)
  bcast_S64x1_S64x64_0_1 : S64x1.BroadcastsInDim S64x64 (![0, 1] : Fin 2 → Fin S64x64.rank)
  scatter_S100000_S700000x1_S700000_n_0_0_1_wf : ScatterDims.WF S100000 S700000x1 S700000 [] [0] [0] 1
  gather_S100000_S700000x1_S700000_n_0_n_n_0_1_1_wf : GatherDims.WF S100000 S700000x1 S700000 [] [0] [] [0] [] 1 ![1]
  dot_S100000x128_S128x128_S100000x128_1_0_0_1_n_n_wf : DotDims.WF S100000x128 S128x128 S100000x128 [1] [0] [0] [1] [] []
  gather_S100000x128_S700000x1_S700000x128_1_0_n_n_0_1_1128_wf : GatherDims.WF S100000x128 S700000x1 S700000x128 [1] [0] [] [0] [] 1 ![1, 128]
  scatter_S100000x128_S700000x1_S700000x128_1_0_0_1_wf : ScatterDims.WF S100000x128 S700000x1 S700000x128 [1] [0] [0] 1
  dot_S100000x128_S128x64_S100000x64_1_0_0_1_n_n_wf : DotDims.WF S100000x128 S128x64 S100000x64 [1] [0] [0] [1] [] []
  gather_S100000x64_S700000x1_S700000x64_1_0_n_n_0_1_164_wf : GatherDims.WF S100000x64 S700000x1 S700000x64 [1] [0] [] [0] [] 1 ![1, 64]
  scatter_S100000x64_S700000x1_S700000x64_1_0_0_1_wf : ScatterDims.WF S100000x64 S700000x1 S700000x64 [1] [0] [0] 1
  scatter_S64x64_S100000x1_S100000x64_1_0_0_1_wf : ScatterDims.WF S64x64 S100000x1 S100000x64 [1] [0] [0] 1
  scatter_S64_S100000x1_S100000_n_0_0_1_wf : ScatterDims.WF S64 S100000x1 S100000 [] [0] [0] 1

variable [Facts₀]

def scatter_S100000_S700000x1_S700000_n_0_0_1 : ScatterDims S100000 S700000x1 S700000 where
  updateWindowDims := []
  insertedWindowDims := [0]
  scatterDimsToOperandDims := [0]
  indexVectorDim := 1
  wf := scatter_S100000_S700000x1_S700000_n_0_0_1_wf
def gather_S100000_S700000x1_S700000_n_0_n_n_0_1_1 : GatherDims S100000 S700000x1 S700000 where
  offsetDims := []
  collapsedSliceDims := [0]
  operandBatchingDims := []
  startIndicesBatchingDims := []
  startIndexMap := [0]
  indexVectorDim := 1
  sliceSizes := ![1]
  wf := gather_S100000_S700000x1_S700000_n_0_n_n_0_1_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf
def gather_S100000x128_S700000x1_S700000x128_1_0_n_n_0_1_1128 : GatherDims S100000x128 S700000x1 S700000x128 where
  offsetDims := [1]
  collapsedSliceDims := [0]
  operandBatchingDims := []
  startIndicesBatchingDims := []
  startIndexMap := [0]
  indexVectorDim := 1
  sliceSizes := ![1, 128]
  wf := gather_S100000x128_S700000x1_S700000x128_1_0_n_n_0_1_1128_wf
def scatter_S100000x128_S700000x1_S700000x128_1_0_0_1 : ScatterDims S100000x128 S700000x1 S700000x128 where
  updateWindowDims := [1]
  insertedWindowDims := [0]
  scatterDimsToOperandDims := [0]
  indexVectorDim := 1
  wf := scatter_S100000x128_S700000x1_S700000x128_1_0_0_1_wf
def dot_S100000x128_S128x64_S100000x64_1_0_0_1_n_n : DotDims S100000x128 S128x64 S100000x64 where
  lhsContracting := [1]
  rhsContracting := [0]
  lhsNonContracting := [0]
  rhsNonContracting := [1]
  lhsBatch := []
  rhsBatch := []
  wf := dot_S100000x128_S128x64_S100000x64_1_0_0_1_n_n_wf
def gather_S100000x64_S700000x1_S700000x64_1_0_n_n_0_1_164 : GatherDims S100000x64 S700000x1 S700000x64 where
  offsetDims := [1]
  collapsedSliceDims := [0]
  operandBatchingDims := []
  startIndicesBatchingDims := []
  startIndexMap := [0]
  indexVectorDim := 1
  sliceSizes := ![1, 64]
  wf := gather_S100000x64_S700000x1_S700000x64_1_0_n_n_0_1_164_wf
def scatter_S100000x64_S700000x1_S700000x64_1_0_0_1 : ScatterDims S100000x64 S700000x1 S700000x64 where
  updateWindowDims := [1]
  insertedWindowDims := [0]
  scatterDimsToOperandDims := [0]
  indexVectorDim := 1
  wf := scatter_S100000x64_S700000x1_S700000x64_1_0_0_1_wf
def scatter_S64x64_S100000x1_S100000x64_1_0_0_1 : ScatterDims S64x64 S100000x1 S100000x64 where
  updateWindowDims := [1]
  insertedWindowDims := [0]
  scatterDimsToOperandDims := [0]
  indexVectorDim := 1
  wf := scatter_S64x64_S100000x1_S100000x64_1_0_0_1_wf
def scatter_S64_S100000x1_S100000_n_0_0_1 : ScatterDims S64 S100000x1 S100000 where
  updateWindowDims := []
  insertedWindowDims := [0]
  scatterDimsToOperandDims := [0]
  indexVectorDim := 1
  wf := scatter_S64_S100000x1_S100000_n_0_0_1_wf

class Facts : Prop extends Facts₀ where

variable [Facts]
-- ==== Proof.LibRegion.lean ====
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

namespace Cert.LibRegion

open Idealize.ShloMosaic Idealize.ShloMosaic.Pipeline
open Idealize.SL Idealize.SL.RA Idealize.SL.BI Idealize.SL.Sem Idealize.SL.ProofMode
open scoped Idealize.SL.BI
open Idealize.SL.BI.BIBase Idealize.SL.BI.Laws

variable {nD : Nat} {τ : Topo} {sig : RefSig} {Val : EltTy → Type}
variable {Ix : Type} [DecidableEq Ix] {Name : Type} [DecidableEq Name] {U : Type} [URA U] {Lvl : Type}

local notation "𝕄" => MT nD τ sig Ix Val Name U Lvl

variable {c : Thread nD τ} {sp0 sp1 sp2 : Space} {s0 s1 s2 : Shape} {e0 e1 e2 : EltTy}
  {m0 : Memref sig c.2.kind sp0 s0 e0} {m1 : Memref sig c.2.kind sp1 s1 e1} {m2 : Memref sig c.2.kind sp2 s2 e2}
  {x0 : s0.Idx → Val e0} {x1 : s1.Idx → Val e1} {y : s2.Idx → Val e2}

/-- A body's triple on three buffers, in continuation form: it keeps the first two at `x0`, `x1` and leaves `y` in the third. -/
def Body3 (W : (PUnit → sProp 𝕄) → sProp 𝕄) (c : Thread nD τ) (m0 : Memref sig c.2.kind sp0 s0 e0) (m1 : Memref sig c.2.kind sp1 s1 e1)
    (m2 : Memref sig c.2.kind sp2 s2 e2) (x0 : s0.Idx → Val e0) (x1 : s1.Idx → Val e1) (y : s2.Idx → Val e2) : Prop :=
  ∀ K, iprop(owns c m0 fullShare x0 ∗ owns c m1 fullShare x1 ∗ (∃ d, owns c m2 fullShare d)
      ∗ (iprop(owns c m0 fullShare x0 ∗ owns c m1 fullShare x1 ∗ owns c m2 fullShare y) -∗ K ⟨⟩)) ⊢ W K

/-- It is enough to run the body on raw contents `f0`, `f1`, `f2` and read `y` of the first two's reads off what is left in the third. -/
theorem Body3.intro {W : sWPT 𝕄 PUnit} {y : (s0.Idx → Val e0) → (s1.Idx → Val e1) → s2.Idx → Val e2}
    (h : ∀ f0 f1 f2 (K : PUnit → sProp 𝕄), iprop((m0.view.loc c ↦[m0.view.set]{fullShare} f0) ∗ (m1.view.loc c ↦[m1.view.set]{fullShare} f1)
        ∗ (m2.view.loc c ↦[m2.view.set]{fullShare} f2)
        ∗ (iprop((m0.view.loc c ↦[m0.view.set]{fullShare} f0) ∗ (m1.view.loc c ↦[m1.view.set]{fullShare} f1)
          ∗ ∃ g, ⌜m2.view.read Val g = y (m0.view.read Val f0) (m1.view.read Val f1)⌝ ∗ (m2.view.loc c ↦[m2.view.set]{fullShare} g)) -∗ K ⟨⟩))
      ⊢ W K) (x0 : s0.Idx → Val e0) (x1 : s1.Idx → Val e1) : Body3 W c m0 m1 m2 x0 x1 (y x0 x1) := fun K => by
  unfold owns
  iintro ⟨⟨%f0, %hf0, H0⟩, ⟨%f1, %hf1, H1⟩, ⟨%d2, %f2, -, H2⟩, Hk⟩
  subst hf0 hf1
  iapply (h f0 f1 f2 K)
  iframe H0 H1 H2
  iintro ⟨H0, H1, H2⟩
  iapply Hk
  isplitl [H0]; · iexists f0; isplitr; · ipureintro; rfl
                  iexact H0
  isplitl [H1]; · iexists f1; isplitr; · ipureintro; rfl
                  iexact H1
  iexact H2

/-- At a point whose input buffers hold `x0`, `x1` whatever `d` is, the triple applies and what it does not read is framed. -/
theorem Body3.point {W : sWPT 𝕄 PUnit} (h : Body3 W c m0 m1 m2 x0 x1 y) {D0 D1 D2 : Type}
    {B0 : D0 → s0.Idx → Val e0} {B1 : D1 → s1.Idx → Val e1} {B2 : D2 → s2.Idx → Val e2} (h0 : ∀ d, B0 d = x0) (h1 : ∀ d, B1 d = x1)
    {a0 : s0.Idx → Val e0} {a1 : s1.Idx → Val e1} {a2 : s2.Idx → Val e2} (k0 : a0 = x0) (k1 : a1 = x1) (k2 : a2 = y) (Φ O : sProp 𝕄) :
    iprop(Φ ∗ O ∗ (∃ d, owns c m0 fullShare (B0 d)) ∗ (∃ d, owns c m1 fullShare (B1 d)) ∗ (∃ d, owns c m2 fullShare (B2 d)))
      ⊢ W fun _ => iprop(Φ ∗ O ∗ owns c m0 fullShare a0 ∗ owns c m1 fullShare a1 ∗ owns c m2 fullShare a2) := by
  subst k0 k1 k2
  simp only [h0, h1]
  iintro ⟨HΦ, Ho, ⟨%d0, H0⟩, ⟨%d1, H1⟩, ⟨%d2, H2⟩⟩
  iapply (h _)
  iframe H0 H1
  isplitl [H2]; · iexists _; iexact H2
  iintro ⟨H0, H1, H2⟩
  iframe

end Cert.LibRegion
-- ==== Proof.KR0.lean ====
import proofs.«400334_j4698694221926_1_alg».proof.Proof.Gen.Kernel.Launch
import proofs.«400334_j4698694221926_1_alg».proof.Proof.Gen.Kernel.Skeleton
import proofs.«400334_j4698694221926_1_alg».proof.Proof.Gen.Kernel.Points
import proofs.«400334_j4698694221926_1_alg».proof.Proof.LibRegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.Sem Idealize.SL.ProofMode
open Idealize.ShloMosaic.Pipeline (Dat BodyObligation)
open Cert.LibRegion (Body3)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rx0 : Rect S10000x128 := Rect.unit (s := S10000x128) ![0, 0] S10000x128.size inb_S10000x128_S10000x128_0_0
abbrev rw0 : Rect S128x128 := Rect.unit (s := S128x128) ![0, 0] S128x128.size inb_S128x128_S128x128_0_0
abbrev ro0 : Rect S10000x128 := Rect.unit (s := S10000x128) ![0, 0] S10000x128.size inb_S10000x128_S10000x128_0_0

def out0_2 (x0 : Vec F S10000x128 .f32) (x1 : Vec F S128x128 .f32) : Vec F S10000x128 .f32 :=
  View.canon [⟨ro0, k0_pay1 (View.ld x0 rx0) (View.ld x1 rw0)⟩]

theorem cover0_2 (p0 : Vec F S10000x128 .f32) (y : S10000x128.Idx) :
    ∃ pc ∈ ([⟨ro0, p0⟩] : List (View.Piece (Elt F) S10000x128 .f32)), y ∈ pc.1.set :=
  View.cover_of_tiled [⟨ro0, p0⟩] S10000x128.size (by rfl) y

theorem sound_kernel0 (c : Dev nD) (E : Set ℕ) (i : grid0.Coords) (arg1 : Memref sig .tc .vmem S10000x128 .f32) (harg1 : arg1.IsWhole)
    (arg2 : Memref sig .tc .vmem S128x128 .f32) (harg2 : arg2.IsWhole) (arg3 : Memref sig .tc .vmem S10000x128 .f32) (harg3 : arg3.IsWhole) :
    ∀ x0 x1, Body3 (wp frame (wpE (defs₀ (F := F)) Variants.none c none) E (cc0__linear_kernel i arg1 harg1 arg2 harg2 arg3 harg3) : sWPT 𝕄 _)
      c arg1 arg2 arg3 x0 x1 (out0_2 x0 x1) :=
  Body3.intro fun f0 f1 f2 K => by
    simp only [cc0__linear_kernel_eq_skeleton]; unfold cc0__linear_kernel_skel
    iintro ⟨H0, H1, H2, Hk⟩
    sl_exec
    sl_step
    iapply Hk
    iframe H0 H1
    iexists _; isplitr
    swap; · iexact H2
    ipureintro
    exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]

theorem body_obligation0 (c : Dev nD) : BodyObligation (dat0 (F := F) V c) (defs₀ (F := F)) Variants.none () Set.univ := fun t => by
  rw [bigSep_W0, bigSep_W0]
  sl_whnfR [defs₀, Defs.onTc]
  exact (sound_kernel0 c Set.univ _ _ _ _ _ _ _ (iblk0 V c 0 t) (iblk0 V c 1 t)).point
    ((dat0 V c).before_in_eq_fetched 0 rfl (fun _ => rfl) (fun _ _ _ => rfl) (fun _ => rfl) t)
    ((dat0 V c).before_in_eq_fetched 1 rfl (fun _ => rfl) (fun _ _ _ => rfl) (fun _ => rfl) t)
    (by dsimp only [dat0]) (by dsimp only [dat0]) (after0_2 V c t) _ _

end Cert.Kernel.Hand

end
-- ==== Proof.KR1.lean ====
import proofs.«400334_j4698694221926_1_alg».proof.Proof.Gen.Kernel.Launch
import proofs.«400334_j4698694221926_1_alg».proof.Proof.Gen.Kernel.Skeleton
import proofs.«400334_j4698694221926_1_alg».proof.Proof.Gen.Kernel.Points
import proofs.«400334_j4698694221926_1_alg».proof.Proof.LibRegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.Sem Idealize.SL.ProofMode
open Idealize.ShloMosaic.Pipeline (Dat BodyObligation)
open Cert.LibRegion (Body3)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rx1 : Rect S10000x128 := Rect.unit (s := S10000x128) ![0, 0] S10000x128.size inb_S10000x128_S10000x128_0_0
abbrev rw1 : Rect S128 := Rect.unit (s := S128) ![0] S128.size inb_S128_S128_0
abbrev ro1 : Rect S10000x128 := Rect.unit (s := S10000x128) ![0, 0] S10000x128.size inb_S10000x128_S10000x128_0_0

def out1_2 (x0 : Vec F S10000x128 .f32) (x1 : Vec F S128 .f32) : Vec F S10000x128 .f32 :=
  View.canon [⟨ro1, k1_pay1 (View.ld x0 rx1) (View.ld x1 rw1)⟩]

theorem cover1_2 (p0 : Vec F S10000x128 .f32) (y : S10000x128.Idx) :
    ∃ pc ∈ ([⟨ro1, p0⟩] : List (View.Piece (Elt F) S10000x128 .f32)), y ∈ pc.1.set :=
  View.cover_of_tiled [⟨ro1, p0⟩] S10000x128.size (by rfl) y

theorem sound_kernel1 (c : Dev nD) (E : Set ℕ) (i : grid1.Coords) (arg1 : Memref sig .tc .vmem S10000x128 .f32) (harg1 : arg1.IsWhole)
    (arg2 : Memref sig .tc .vmem S128 .f32) (harg2 : arg2.IsWhole) (arg3 : Memref sig .tc .vmem S10000x128 .f32) (harg3 : arg3.IsWhole) :
    ∀ x0 x1, Body3 (wp frame (wpE (defs₀ (F := F)) Variants.none c none) E (cc1__bias_act_kernel i arg1 harg1 arg2 harg2 arg3 harg3) : sWPT 𝕄 _)
      c arg1 arg2 arg3 x0 x1 (out1_2 x0 x1) :=
  Body3.intro fun f0 f1 f2 K => by
    simp only [cc1__bias_act_kernel_eq_skeleton]; unfold cc1__bias_act_kernel_skel
    iintro ⟨H0, H1, H2, Hk⟩
    sl_exec
    sl_step
    iapply Hk
    iframe H0 H1
    iexists _; isplitr
    swap; · iexact H2
    ipureintro
    exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = out1_2 (iblk1 V c 0 t) (iblk1 V c 1 t) := by dsimp only [dat1]

theorem body_obligation1 (c : Dev nD) : BodyObligation (dat1 (F := F) V c) (defs₀ (F := F)) Variants.none () Set.univ := fun t => by
  rw [bigSep_W1, bigSep_W1]
  sl_whnfR [defs₀, Defs.onTc]
  exact (sound_kernel1 c Set.univ _ _ _ _ _ _ _ (iblk1 V c 0 t) (iblk1 V c 1 t)).point
    ((dat1 V c).before_in_eq_fetched 0 rfl (fun _ => rfl) (fun _ _ _ => rfl) (fun _ => rfl) t)
    ((dat1 V c).before_in_eq_fetched 1 rfl (fun _ => rfl) (fun _ _ _ => rfl) (fun _ => rfl) t)
    (by dsimp only [dat1]) (by dsimp only [dat1]) (after1_2 V c t) _ _

end Cert.Kernel.Hand

end
-- ==== Proof.KR2.lean ====
import proofs.«400334_j4698694221926_1_alg».proof.Proof.Gen.Kernel.Launch
import proofs.«400334_j4698694221926_1_alg».proof.Proof.Gen.Kernel.Skeleton
import proofs.«400334_j4698694221926_1_alg».proof.Proof.Gen.Kernel.Points
import proofs.«400334_j4698694221926_1_alg».proof.Proof.LibRegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.Sem Idealize.SL.ProofMode
open Idealize.ShloMosaic.Pipeline (Dat BodyObligation)
open Cert.LibRegion (Body3)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rx2 : Rect S10000x128 := Rect.unit (s := S10000x128) ![0, 0] S10000x128.size inb_S10000x128_S10000x128_0_0
abbrev rw2 : Rect S128x128 := Rect.unit (s := S128x128) ![0, 0] S128x128.size inb_S128x128_S128x128_0_0
abbrev ro2 : Rect S10000x128 := Rect.unit (s := S10000x128) ![0, 0] S10000x128.size inb_S10000x128_S10000x128_0_0

def out2_2 (x0 : Vec F S10000x128 .f32) (x1 : Vec F S128x128 .f32) : Vec F S10000x128 .f32 :=
  View.canon [⟨ro2, k2_pay1 (View.ld x0 rx2) (View.ld x1 rw2)⟩]

theorem cover2_2 (p0 : Vec F S10000x128 .f32) (y : S10000x128.Idx) :
    ∃ pc ∈ ([⟨ro2, p0⟩] : List (View.Piece (Elt F) S10000x128 .f32)), y ∈ pc.1.set :=
  View.cover_of_tiled [⟨ro2, p0⟩] S10000x128.size (by rfl) y

theorem sound_kernel2 (c : Dev nD) (E : Set ℕ) (i : grid2.Coords) (arg1 : Memref sig .tc .vmem S10000x128 .f32) (harg1 : arg1.IsWhole)
    (arg2 : Memref sig .tc .vmem S128x128 .f32) (harg2 : arg2.IsWhole) (arg3 : Memref sig .tc .vmem S10000x128 .f32) (harg3 : arg3.IsWhole) :
    ∀ x0 x1, Body3 (wp frame (wpE (defs₀ (F := F)) Variants.none c none) E (cc2__linear_kernel i arg1 harg1 arg2 harg2 arg3 harg3) : sWPT 𝕄 _)
      c arg1 arg2 arg3 x0 x1 (out2_2 x0 x1) :=
  Body3.intro fun f0 f1 f2 K => by
    simp only [cc2__linear_kernel_eq_skeleton]; unfold cc2__linear_kernel_skel
    iintro ⟨H0, H1, H2, Hk⟩
    sl_exec
    sl_step
    iapply Hk
    iframe H0 H1
    iexists _; isplitr
    swap; · iexact H2
    ipureintro
    exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = out2_2 (iblk2 V c 0 t) (iblk2 V c 1 t) := by dsimp only [dat2]

theorem body_obligation2 (c : Dev nD) : BodyObligation (dat2 (F := F) V c) (defs₀ (F := F)) Variants.none () Set.univ := fun t => by
  rw [bigSep_W2, bigSep_W2]
  sl_whnfR [defs₀, Defs.onTc]
  exact (sound_kernel2 c Set.univ _ _ _ _ _ _ _ (iblk2 V c 0 t) (iblk2 V c 1 t)).point
    ((dat2 V c).before_in_eq_fetched 0 rfl (fun _ => rfl) (fun _ _ _ => rfl) (fun _ => rfl) t)
    ((dat2 V c).before_in_eq_fetched 1 rfl (fun _ => rfl) (fun _ _ _ => rfl) (fun _ => rfl) t)
    (by dsimp only [dat2]) (by dsimp only [dat2]) (after2_2 V c t) _ _

end Cert.Kernel.Hand

end
-- ==== Proof.KR3.lean ====
import proofs.«400334_j4698694221926_1_alg».proof.Proof.Gen.Kernel.Launch
import proofs.«400334_j4698694221926_1_alg».proof.Proof.Gen.Kernel.Skeleton
import proofs.«400334_j4698694221926_1_alg».proof.Proof.Gen.Kernel.Points
import proofs.«400334_j4698694221926_1_alg».proof.Proof.LibRegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.Sem Idealize.SL.ProofMode
open Idealize.ShloMosaic.Pipeline (Dat BodyObligation)
open Cert.LibRegion (Body3)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rx3 : Rect S10000x128 := Rect.unit (s := S10000x128) ![0, 0] S10000x128.size inb_S10000x128_S10000x128_0_0
abbrev rw3 : Rect S128 := Rect.unit (s := S128) ![0] S128.size inb_S128_S128_0
abbrev ro3 : Rect S10000x128 := Rect.unit (s := S10000x128) ![0, 0] S10000x128.size inb_S10000x128_S10000x128_0_0

def out3_2 (x0 : Vec F S10000x128 .f32) (x1 : Vec F S128 .f32) : Vec F S10000x128 .f32 :=
  View.canon [⟨ro3, k3_pay1 (View.ld x0 rx3) (View.ld x1 rw3)⟩]

theorem cover3_2 (p0 : Vec F S10000x128 .f32) (y : S10000x128.Idx) :
    ∃ pc ∈ ([⟨ro3, p0⟩] : List (View.Piece (Elt F) S10000x128 .f32)), y ∈ pc.1.set :=
  View.cover_of_tiled [⟨ro3, p0⟩] S10000x128.size (by rfl) y

theorem sound_kernel3 (c : Dev nD) (E : Set ℕ) (i : grid3.Coords) (arg1 : Memref sig .tc .vmem S10000x128 .f32) (harg1 : arg1.IsWhole)
    (arg2 : Memref sig .tc .vmem S128 .f32) (harg2 : arg2.IsWhole) (arg3 : Memref sig .tc .vmem S10000x128 .f32) (harg3 : arg3.IsWhole) :
    ∀ x0 x1, Body3 (wp frame (wpE (defs₀ (F := F)) Variants.none c none) E (cc3__bias_act_kernel i arg1 harg1 arg2 harg2 arg3 harg3) : sWPT 𝕄 _)
      c arg1 arg2 arg3 x0 x1 (out3_2 x0 x1) :=
  Body3.intro fun f0 f1 f2 K => by
    simp only [cc3__bias_act_kernel_eq_skeleton]; unfold cc3__bias_act_kernel_skel
    iintro ⟨H0, H1, H2, Hk⟩
    sl_exec
    sl_step
    iapply Hk
    iframe H0 H1
    iexists _; isplitr
    swap; · iexact H2
    ipureintro
    exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = out3_2 (iblk3 V c 0 t) (iblk3 V c 1 t) := by dsimp only [dat3]

theorem body_obligation3 (c : Dev nD) : BodyObligation (dat3 (F := F) V c) (defs₀ (F := F)) Variants.none () Set.univ := fun t => by
  rw [bigSep_W3, bigSep_W3]
  sl_whnfR [defs₀, Defs.onTc]
  exact (sound_kernel3 c Set.univ _ _ _ _ _ _ _ (iblk3 V c 0 t) (iblk3 V c 1 t)).point
    ((dat3 V c).before_in_eq_fetched 0 rfl (fun _ => rfl) (fun _ _ _ => rfl) (fun _ => rfl) t)
    ((dat3 V c).before_in_eq_fetched 1 rfl (fun _ => rfl) (fun _ _ _ => rfl) (fun _ => rfl) t)
    (by dsimp only [dat3]) (by dsimp only [dat3]) (after3_2 V c t) _ _

end Cert.Kernel.Hand

end
-- ==== Proof.KR4.lean ====
import proofs.«400334_j4698694221926_1_alg».proof.Proof.Gen.Kernel.Launch
import proofs.«400334_j4698694221926_1_alg».proof.Proof.Gen.Kernel.Skeleton
import proofs.«400334_j4698694221926_1_alg».proof.Proof.Gen.Kernel.Points
import proofs.«400334_j4698694221926_1_alg».proof.Proof.LibRegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.Sem Idealize.SL.ProofMode
open Idealize.ShloMosaic.Pipeline (Dat BodyObligation)
open Cert.LibRegion (Body3)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rx4 : Rect S10000x128 := Rect.unit (s := S10000x128) ![0, 0] S10000x128.size inb_S10000x128_S10000x128_0_0
abbrev rw4 : Rect S128x64 := Rect.unit (s := S128x64) ![0, 0] S128x64.size inb_S128x64_S128x64_0_0
abbrev ro4 : Rect S10000x64 := Rect.unit (s := S10000x64) ![0, 0] S10000x64.size inb_S10000x64_S10000x64_0_0

def out4_2 (x0 : Vec F S10000x128 .f32) (x1 : Vec F S128x64 .f32) : Vec F S10000x64 .f32 :=
  View.canon [⟨ro4, k4_pay1 (View.ld x0 rx4) (View.ld x1 rw4)⟩]

theorem cover4_2 (p0 : Vec F S10000x64 .f32) (y : S10000x64.Idx) :
    ∃ pc ∈ ([⟨ro4, p0⟩] : List (View.Piece (Elt F) S10000x64 .f32)), y ∈ pc.1.set :=
  View.cover_of_tiled [⟨ro4, p0⟩] S10000x64.size (by rfl) y

theorem sound_kernel4 (c : Dev nD) (E : Set ℕ) (i : grid4.Coords) (arg1 : Memref sig .tc .vmem S10000x128 .f32) (harg1 : arg1.IsWhole)
    (arg2 : Memref sig .tc .vmem S128x64 .f32) (harg2 : arg2.IsWhole) (arg3 : Memref sig .tc .vmem S10000x64 .f32) (harg3 : arg3.IsWhole) :
    ∀ x0 x1, Body3 (wp frame (wpE (defs₀ (F := F)) Variants.none c none) E (cc4__linear_kernel i arg1 harg1 arg2 harg2 arg3 harg3) : sWPT 𝕄 _)
      c arg1 arg2 arg3 x0 x1 (out4_2 x0 x1) :=
  Body3.intro fun f0 f1 f2 K => by
    simp only [cc4__linear_kernel_eq_skeleton]; unfold cc4__linear_kernel_skel
    iintro ⟨H0, H1, H2, Hk⟩
    sl_exec
    sl_step
    iapply Hk
    iframe H0 H1
    iexists _; isplitr
    swap; · iexact H2
    ipureintro
    exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_2 (c : Dev nD) (t : Fin cfg4.N) : (dat4 V c).after 2 t = out4_2 (iblk4 V c 0 t) (iblk4 V c 1 t) := by dsimp only [dat4]

theorem body_obligation4 (c : Dev nD) : BodyObligation (dat4 (F := F) V c) (defs₀ (F := F)) Variants.none () Set.univ := fun t => by
  rw [bigSep_W4, bigSep_W4]
  sl_whnfR [defs₀, Defs.onTc]
  exact (sound_kernel4 c Set.univ _ _ _ _ _ _ _ (iblk4 V c 0 t) (iblk4 V c 1 t)).point
    ((dat4 V c).before_in_eq_fetched 0 rfl (fun _ => rfl) (fun _ _ _ => rfl) (fun _ => rfl) t)
    ((dat4 V c).before_in_eq_fetched 1 rfl (fun _ => rfl) (fun _ _ _ => rfl) (fun _ => rfl) t)
    (by dsimp only [dat4]) (by dsimp only [dat4]) (after4_2 V c t) _ _

end Cert.Kernel.Hand

end
-- ==== Proof.KR5.lean ====
import proofs.«400334_j4698694221926_1_alg».proof.Proof.Gen.Kernel.Launch
import proofs.«400334_j4698694221926_1_alg».proof.Proof.Gen.Kernel.Skeleton
import proofs.«400334_j4698694221926_1_alg».proof.Proof.Gen.Kernel.Points
import proofs.«400334_j4698694221926_1_alg».proof.Proof.LibRegion

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.Sem Idealize.SL.ProofMode
open Idealize.ShloMosaic.Pipeline (Dat BodyObligation)
open Cert.LibRegion (Body3)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rx5 : Rect S10000x64 := Rect.unit (s := S10000x64) ![0, 0] S10000x64.size inb_S10000x64_S10000x64_0_0
abbrev rw5 : Rect S64 := Rect.unit (s := S64) ![0] S64.size inb_S64_S64_0
abbrev ro5 : Rect S10000x64 := Rect.unit (s := S10000x64) ![0, 0] S10000x64.size inb_S10000x64_S10000x64_0_0

def out5_2 (x0 : Vec F S10000x64 .f32) (x1 : Vec F S64 .f32) : Vec F S10000x64 .f32 :=
  View.canon [⟨ro5, k5_pay1 (View.ld x0 rx5) (View.ld x1 rw5)⟩]

theorem cover5_2 (p0 : Vec F S10000x64 .f32) (y : S10000x64.Idx) :
    ∃ pc ∈ ([⟨ro5, p0⟩] : List (View.Piece (Elt F) S10000x64 .f32)), y ∈ pc.1.set :=
  View.cover_of_tiled [⟨ro5, p0⟩] S10000x64.size (by rfl) y

theorem sound_kernel5 (c : Dev nD) (E : Set ℕ) (i : grid5.Coords) (arg1 : Memref sig .tc .vmem S10000x64 .f32) (harg1 : arg1.IsWhole)
    (arg2 : Memref sig .tc .vmem S64 .f32) (harg2 : arg2.IsWhole) (arg3 : Memref sig .tc .vmem S10000x64 .f32) (harg3 : arg3.IsWhole) :
    ∀ x0 x1, Body3 (wp frame (wpE (defs₀ (F := F)) Variants.none c none) E (cc5__bias_act_kernel i arg1 harg1 arg2 harg2 arg3 harg3) : sWPT 𝕄 _)
      c arg1 arg2 arg3 x0 x1 (out5_2 x0 x1) :=
  Body3.intro fun f0 f1 f2 K => by
    simp only [cc5__bias_act_kernel_eq_skeleton]; unfold cc5__bias_act_kernel_skel
    iintro ⟨H0, H1, H2, Hk⟩
    sl_exec
    sl_step
    iapply Hk
    iframe H0 H1
    iexists _; isplitr
    swap; · iexact H2
    ipureintro
    exact View.read_writes_eq_canon _ _ _ (cover5_2 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_2 (c : Dev nD) (t : Fin cfg5.N) : (dat5 V c).after 2 t = out5_2 (iblk5 V c 0 t) (iblk5 V c 1 t) := by dsimp only [dat5]

theorem body_obligation5 (c : Dev nD) : BodyObligation (dat5 (F := F) V c) (defs₀ (F := F)) Variants.none () Set.univ := fun t => by
  rw [bigSep_W5, bigSep_W5]
  sl_whnfR [defs₀, Defs.onTc]
  exact (sound_kernel5 c Set.univ _ _ _ _ _ _ _ (iblk5 V c 0 t) (iblk5 V c 1 t)).point
    ((dat5 V c).before_in_eq_fetched 0 rfl (fun _ => rfl) (fun _ _ _ => rfl) (fun _ => rfl) t)
    ((dat5 V c).before_in_eq_fetched 1 rfl (fun _ => rfl) (fun _ _ _ => rfl) (fun _ => rfl) t)
    (by dsimp only [dat5]) (by dsimp only [dat5]) (after5_2 V c t) _ _

end Cert.Kernel.Hand

end
-- ==== Proof.KR6.lean ====
import proofs.«400334_j4698694221926_1_alg».proof.Proof.Gen.Kernel.Launch
import proofs.«400334_j4698694221926_1_alg».proof.Proof.Gen.Kernel.Skeleton
import proofs.«400334_j4698694221926_1_alg».proof.Proof.Gen.Kernel.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev rx6 : Rect S10000x64 := Rect.unit (s := S10000x64) ![0, 0] S10000x64.size inb_S10000x64_S10000x64_0_0
abbrev r64 : Rect S64x64 := Rect.unit (s := S64x64) ![0, 0] S64x64.size inb_S64x64_S64x64_0_0

def zero6 : Vec F S64x64 .f32 := View.canon [⟨r64, k6_pay1 (F := F)⟩]

def step6 (x0 : Vec F S10000x64 .f32) (x1 : Vec F S10000x64 .bf16) (a : Vec F S64x64 .f32) : Vec F S64x64 .f32 :=
  View.canon [⟨r64, k6_pay2 (View.ld x0 rx6) (View.ld x1 rx6) (View.ld a r64)⟩]

-- The accumulator after point n: the body's update folded over the points from the reset.
def acc6 (c : Dev nD) : (n : ℕ) → n < cfg6.N → Vec F S64x64 .f32
  | 0, h => step6 (iblk6 V c 0 ⟨0, h⟩) (iblk6 V c 1 ⟨0, h⟩) zero6
  | n + 1, h => step6 (iblk6 V c 0 ⟨n + 1, h⟩) (iblk6 V c 1 ⟨n + 1, h⟩) (acc6 c n (Nat.lt_of_succ_lt h))

def fin6 (a : Vec F S64x64 .f32) : Vec F S64x64 .f32 := View.canon [⟨r64, View.ld a r64⟩]

-- The invariant: after a point, the accumulator holds what that point left.
def PhiS6 (c : Dev nD) : (n : ℕ) → n ≤ cfg6.N → sProp 𝕄
  | 0, _ => Pipeline.ΦA spec6 c
  | n + 1, hn => iprop(owns (c : Thread nD τ) (Memref.whole cc6_scratch0 : Memref sig .tc .vmem S64x64 .f32) fullShare (acc6 V c n hn)
      ∗ Pipeline.scopedRestBut (Ix := Unit) (Name := ℕ) (U := UR sig nD τ) (Lvl := ℕ) (Val := Elt F) spec6 c [cc6_scratch0] ∗ (∃ r, prngReg c r))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => fin6 (acc6 V c t.val t.isLt)
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = fin6 (acc6 V c t.val t.isLt) := by dsimp only [dat6]

theorem zeros6 : (![0, 0] : Fin 2 → Nat) = fun _ => 0 := funext fun a => by fin_cases a <;> rfl

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val = 0 :=
  (by decide +kernel : ∀ t : Fin grid6.N, cond6_0 (grid6.coords t) ↔ t.val = 0)

abbrev cond6_1 (i : grid6.Coords) : Prop := k6_cond2 i = 1#1

theorem hcond6_1 : ∀ t : Fin cfg6.N, cond6_1 (grid6.coords t) ↔ t.val = 9 :=
  (by decide +kernel : ∀ t : Fin grid6.N, cond6_1 (grid6.coords t) ↔ t.val = 9)

theorem idleAt6_2 : ∀ t : Fin cfg6.N, ¬t.val = 9 → idle6 2 (grid6.coords t) = true := by decide +kernel

theorem noFlush6_2 : ∀ t : Fin cfg6.N, ¬t.val = 9 → (win6 2).flush t = false := by decide +kernel

theorem liveAt6_2 : ∀ t : Fin cfg6.N, t.val = 9 → idle6 2 (grid6.coords t) = false := by decide +kernel

theorem cover6 (p : Vec F S64x64 .f32) (L : List (View.Piece (Elt F) S64x64 .f32)) (y : S64x64.Idx) :
    ∃ pc ∈ ((⟨r64, p⟩ : View.Piece (Elt F) S64x64 .f32) :: L), y ∈ pc.1.set :=
  ⟨_, List.mem_cons.mpr (Or.inl rfl), View.mem_set_unit_zero (S := S64x64) zeros6 inb_S64x64_S64x64_0_0 y⟩

section Triples
variable (c : Dev nD) (E : Set ℕ) (i : grid6.Coords)
  (arg1 : Memref sig .tc .vmem S10000x64 .f32) (harg1 : arg1.IsWhole) (arg2 : Memref sig .tc .vmem S10000x64 .bf16) (harg2 : arg2.IsWhole)
  (arg3 : Memref sig .tc .vmem S64x64 .f32) (harg3 : arg3.IsWhole) (arg4 : Memref sig .tc .vmem S64x64 .f32) (harg4 : arg4.IsWhole)
  (x0 : Vec F S10000x64 .f32) (x1 : Vec F S10000x64 .bf16)

set_option maxHeartbeats 1000000 in
theorem sound_kernel6_B (hc0 : ¬cond6_0 i) (hc1 : ¬cond6_1 i) (a : Vec F S64x64 .f32) (K : PUnit → sProp 𝕄) :
    iprop(owns (c : Thread nD τ) arg1 fullShare x0 ∗ owns (c : Thread nD τ) arg2 fullShare x1 ∗ owns (c : Thread nD τ) arg4 fullShare a
        ∗ (iprop(owns (c : Thread nD τ) arg1 fullShare x0 ∗ owns (c : Thread nD τ) arg2 fullShare x1 ∗ owns (c : Thread nD τ) arg4 fullShare (step6 x0 x1 a)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  exact View.read_writes_eq_canon _ _ _ (cover6 _ _)

set_option maxHeartbeats 1000000 in
theorem sound_kernel6_A (hc0 : cond6_0 i) (hc1 : ¬cond6_1 i) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1 ∗ owns (c : Thread nD τ) arg4 fullShare (step6 x0 x1 zero6)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (cover6 _ _)]
  unfold step6
  sl_unfold_run_names
  simp only [View.canon_cons_unit_zero (S := S64x64) zeros6]
  rw [View.readCov_eq_canon_ld _ _ r64 (cover6 _ _)]
  rfl

set_option maxHeartbeats 1000000 in
theorem sound_kernel6_C (hc0 : ¬cond6_0 i) (hc1 : cond6_1 i) (a : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare a
        ∗ (iprop(owns (c : Thread nD τ) arg1 fullShare x0 ∗ owns (c : Thread nD τ) arg2 fullShare x1
            ∗ owns (c : Thread nD τ) arg3 fullShare (fin6 (step6 x0 x1 a)) ∗ owns (c : Thread nD τ) arg4 fullShare (step6 x0 x1 a)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%d3, %f3, -, H3⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [View.read_writes_eq_canon _ _ _ (cover6 _ _)]
    unfold fin6 step6
    sl_unfold_run_names
    rw [View.readCov_eq_canon_ld _ _ r64 (cover6 _ _)]
    rfl
  iexists _; isplitr
  swap; · iexact HS
  ipureintro
  exact View.read_writes_eq_canon _ _ _ (cover6 _ _)

end Triples

theorem acc6_zero (c : Dev nD) (t : Fin cfg6.N) (h0 : t.val = 0) :
    acc6 V c t.val t.isLt = step6 (iblk6 V c 0 t) (iblk6 V c 1 t) zero6 := by
  obtain ⟨n, hn⟩ := t
  cases n with
  | zero => rfl
  | succ n => exact absurd h0 (Nat.succ_ne_zero n)

theorem acc6_pos (c : Dev nD) (t : Fin cfg6.N) (h0 : ¬t.val = 0) :
    acc6 V c t.val t.isLt
      = step6 (iblk6 V c 0 t) (iblk6 V c 1 t) (acc6 V c (t.val - 1) (Nat.lt_of_le_of_lt (Nat.sub_le _ _) t.isLt)) := by
  obtain ⟨n, hn⟩ := t
  cases n with
  | zero => exact absurd rfl h0
  | succ n => rfl

abbrev scM6 : Memref sig .tc .vmem S64x64 .f32 := Memref.whole cc6_scratch0
abbrev rest6 (c : Dev nD) : sProp 𝕄 :=
  Pipeline.scopedRestBut (Ix := Unit) (Name := ℕ) (U := UR sig nD τ) (Lvl := ℕ) (Val := Elt F) spec6 c [cc6_scratch0]

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn
      = iprop(owns (c : Thread nD τ) scM6 fullShare (acc6 V c n hn) ∗ rest6 (F := F) c ∗ (∃ r, prngReg c r)) := rfl

theorem PhiS6_pos (c : Dev nD) (n : ℕ) (h : n ≤ cfg6.N) (hz : ¬n = 0) :
    PhiS6 V c n h
      = iprop(owns (c : Thread nD τ) scM6 fullShare (acc6 V c (n - 1) (by omega)) ∗ rest6 (F := F) c ∗ (∃ r, prngReg c r)) := by
  cases n with
  | zero => exact absurd rfl hz
  | succ n => rfl

theorem PhiA6_eq (c : Dev nD) :
    (Pipeline.ΦA spec6 c : sProp 𝕄)
      = iprop(((∃ d, owns (c : Thread nD τ) scM6 fullShare d) ∗ rest6 (F := F) c) ∗ (∃ r, prngReg c r)) := by
  unfold Pipeline.ΦA; rw [scopedRest6_split]; simp only [scM6, rest6, owns_whole]; try rfl

-- A point is the first, the last or neither; that case's triple applies with the accumulator as the invariant holds it.
set_option maxHeartbeats 4000000 in
theorem body_obligation6 (c : Dev nD) : BodyObligation (dat6 (F := F) V c) (defs₀ (F := F)) Variants.none () Set.univ := fun t => by
  rw [bigSep_W6, bigSep_W6]
  show _ ⊢ wp _ _ _ (bodyAt6 t) _
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [show (dat6 V c).Φ t.castSucc = PhiS6 V c t.val (Nat.le_of_lt t.isLt) from rfl]
  rw [after6_0, after6_1]
  have hN : t.val < 10 := lt_of_lt_of_eq t.isLt (show cfg6.N = 10 from N_6)
  by_cases h0 : t.val = 0
  · have h9 : ¬t.val = 9 := by omega
    simp only [idleAt6_2 t h9, noFlush6_2 t h9]
    rw [acc6_zero V c t h0, PhiS6_zero V c _ _ h0, PhiA6_eq]
    iintro ⟨⟨⟨HS, HR⟩, Hg⟩, Ho, ⟨%d0, H0⟩, ⟨%d1, H1⟩, H2⟩
    iapply (sound_kernel6_A c Set.univ _ _ _ _ _ _ _ _ _ (iblk6 V c 0 t) (iblk6 V c 1 t) ((hcond6_0 t).mpr h0) (fun h => h9 ((hcond6_1 t).mp h)) _)
    iframe H0 H1 HS
    iintro ⟨H0, H1, HS⟩
    iframe
  · by_cases h9 : t.val = 9
    · simp only [liveAt6_2 t h9]
      rw [after6_2]
      rw [acc6_pos V c t h0, PhiS6_pos V c _ _ h0]
      iintro ⟨⟨HS, HR, Hg⟩, Ho, ⟨%d0, H0⟩, ⟨%d1, H1⟩, ⟨%d2, H2⟩⟩
      iapply (sound_kernel6_C c Set.univ _ _ _ _ _ _ _ _ _ (iblk6 V c 0 t) (iblk6 V c 1 t) (fun h => h0 ((hcond6_0 t).mp h)) ((hcond6_1 t).mpr h9) _ _)
      iframe H0 H1 HS
      isplitl [H2]; · iexists _; iexact H2
      iintro ⟨H0, H1, H2, HS⟩
      iframe
    · simp only [idleAt6_2 t h9, noFlush6_2 t h9]
      rw [acc6_pos V c t h0, PhiS6_pos V c _ _ h0]
      iintro ⟨⟨HS, HR, Hg⟩, Ho, ⟨%d0, H0⟩, ⟨%d1, H1⟩, H2⟩
      iapply (sound_kernel6_B c Set.univ _ _ _ _ _ _ _ _ _ (iblk6 V c 0 t) (iblk6 V c 1 t) (fun h => h0 ((hcond6_0 t).mp h)) (fun h => h9 ((hcond6_1 t).mp h)) _ _)
      iframe H0 H1 HS
      iintro ⟨H0, H1, HS⟩
      iframe

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 10 := N_6; omega), PhiA6_eq]
  iintro ⟨HS, HR, Hg⟩
  isplitl [HS HR]
  · isplitl [HS]; · iexists _; iexact HS
    iexact HR
  iexact Hg

theorem zero6_eq : (zero6 : Vec F S64x64 .f32) = k6_pay1 (F := F) := by
  unfold zero6
  exact View.canon_unit_zero (S := S64x64) zeros6 _ _
theorem step6_eq (x0 : Vec F S10000x64 .f32) (x1 : Vec F S10000x64 .bf16) (a : Vec F S64x64 .f32) : step6 x0 x1 a = k6_pay2 x0 x1 a := by
  unfold step6
  rw [View.canon_unit_zero (S := S64x64) zeros6]
  rw [View.ld_unit_zero (S := S10000x64) zeros6, View.ld_unit_zero (S := S10000x64) zeros6, View.ld_unit_zero (S := S64x64) zeros6]
theorem fin6_eq (a : Vec F S64x64 .f32) : fin6 a = a := by
  unfold fin6
  rw [View.canon_unit_zero (S := S64x64) zeros6, View.ld_unit_zero (S := S64x64) zeros6]

end Cert.Kernel.Hand

end
-- ==== Proof.KRun.lean ====
import proofs.«400334_j4698694221926_1_alg».proof.Proof.KR0
import proofs.«400334_j4698694221926_1_alg».proof.Proof.KR1
import proofs.«400334_j4698694221926_1_alg».proof.Proof.KR2
import proofs.«400334_j4698694221926_1_alg».proof.Proof.KR3
import proofs.«400334_j4698694221926_1_alg».proof.Proof.KR4
import proofs.«400334_j4698694221926_1_alg».proof.Proof.KR5
import proofs.«400334_j4698694221926_1_alg».proof.Proof.KR6
import proofs.«400334_j4698694221926_1_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev tc (W : Dev nD → Valuation τ sig (Elt F)) : (c : Dev nD) → (b : Ref sig .tc) → Buf (Elt F) ((c : Thread nD τ).loc b) :=
  fun c b => W c b

-- Overwriting one buffer of a valuation leaves every other buffer as it was.
theorem upd_ne (W : Valuation τ sig (Elt F)) (r b : Ref sig .tc) (x) (h : b ≠ r) : Function.update W r x b = W b :=
  Function.update_of_ne (StableHlo.devRef_ne_of_ne h : (Proc.devRef .tc b : DevRef τ sig) ≠ Proc.devRef .tc r) ..

abbrev C5 (c : Dev nD) : Valuation τ sig (Elt F) := V5 m c

def o0 (c : Dev nD) : Buf (Elt F) ((c : Thread nD τ).loc main_v36) := (dat0 (tc (C5 m)) c).arrAt 2 cfg0.N
def C6 (c : Dev nD) : Valuation τ sig (Elt F) := Function.update (C5 m c) main_v36 (o0 m c)
theorem C6_self (c : Dev nD) : C6 m c main_v36 = o0 m c := Function.update_self ..
theorem C6_ne (c : Dev nD) (b : Ref sig .tc) (h : b ≠ main_v36) : C6 m c b = C5 m c b := upd_ne _ _ _ _ h
abbrev C7 (c : Dev nD) : Valuation τ sig (Elt F) := StableHlo.after hostOps1 (C6 m c)

def o1 (c : Dev nD) : Buf (Elt F) ((c : Thread nD τ).loc main_v50) := (dat1 (tc (C7 m)) c).arrAt 2 cfg1.N
def C8 (c : Dev nD) : Valuation τ sig (Elt F) := Function.update (C7 m c) main_v50 (o1 m c)
theorem C8_self (c : Dev nD) : C8 m c main_v50 = o1 m c := Function.update_self ..
theorem C8_ne (c : Dev nD) (b : Ref sig .tc) (h : b ≠ main_v50) : C8 m c b = C7 m c b := upd_ne _ _ _ _ h

def o2 (c : Dev nD) : Buf (Elt F) ((c : Thread nD τ).loc main_v51) := (dat2 (tc (C8 m)) c).arrAt 2 cfg2.N
def C9 (c : Dev nD) : Valuation τ sig (Elt F) := Function.update (C8 m c) main_v51 (o2 m c)
theorem C9_self (c : Dev nD) : C9 m c main_v51 = o2 m c := Function.update_self ..
theorem C9_ne (c : Dev nD) (b : Ref sig .tc) (h : b ≠ main_v51) : C9 m c b = C8 m c b := upd_ne _ _ _ _ h
abbrev C10 (c : Dev nD) : Valuation τ sig (Elt F) := StableHlo.after hostOps3 (C9 m c)

def o3 (c : Dev nD) : Buf (Elt F) ((c : Thread nD τ).loc main_v65) := (dat3 (tc (C10 m)) c).arrAt 2 cfg3.N
def C11 (c : Dev nD) : Valuation τ sig (Elt F) := Function.update (C10 m c) main_v65 (o3 m c)
theorem C11_self (c : Dev nD) : C11 m c main_v65 = o3 m c := Function.update_self ..
theorem C11_ne (c : Dev nD) (b : Ref sig .tc) (h : b ≠ main_v65) : C11 m c b = C10 m c b := upd_ne _ _ _ _ h

def o4 (c : Dev nD) : Buf (Elt F) ((c : Thread nD τ).loc main_v66) := (dat4 (tc (C11 m)) c).arrAt 2 cfg4.N
def C12 (c : Dev nD) : Valuation τ sig (Elt F) := Function.update (C11 m c) main_v66 (o4 m c)
theorem C12_self (c : Dev nD) : C12 m c main_v66 = o4 m c := Function.update_self ..
theorem C12_ne (c : Dev nD) (b : Ref sig .tc) (h : b ≠ main_v66) : C12 m c b = C11 m c b := upd_ne _ _ _ _ h
abbrev C13 (c : Dev nD) : Valuation τ sig (Elt F) := StableHlo.after hostOps5 (C12 m c)

def o5 (c : Dev nD) : Buf (Elt F) ((c : Thread nD τ).loc main_v80) := (dat5 (tc (C13 m)) c).arrAt 2 cfg5.N
def C14 (c : Dev nD) : Valuation τ sig (Elt F) := Function.update (C13 m c) main_v80 (o5 m c)
theorem C14_self (c : Dev nD) : C14 m c main_v80 = o5 m c := Function.update_self ..
theorem C14_ne (c : Dev nD) (b : Ref sig .tc) (h : b ≠ main_v80) : C14 m c b = C13 m c b := upd_ne _ _ _ _ h
abbrev C15 (c : Dev nD) : Valuation τ sig (Elt F) := StableHlo.after hostOps6 (C14 m c)

def o6 (c : Dev nD) : Buf (Elt F) ((c : Thread nD τ).loc main_v88) := (dat6 (tc (C15 m)) c).arrAt 2 cfg6.N
def C16 (c : Dev nD) : Valuation τ sig (Elt F) := Function.update (C15 m c) main_v88 (o6 m c)
theorem C16_self (c : Dev nD) : C16 m c main_v88 = o6 m c := Function.update_self ..
theorem C16_ne (c : Dev nD) (b : Ref sig .tc) (h : b ≠ main_v88) : C16 m c b = C15 m c b := upd_ne _ _ _ _ h
abbrev C17 (c : Dev nD) : Valuation τ sig (Elt F) := StableHlo.after hostOps7 (C16 m c)

-- What each region leaves, read off the chain of contents between the items.
def outs : Outs (F := F) := fun J r c => match J with
  | 6 => C6 m c r | 8 => C8 m c r | 9 => C9 m c r | 11 => C11 m c r | 12 => C12 m c r | 14 => C14 m c r | 16 => C16 m c r
  | _ => C5 m c r

theorem V6_eq (c : Dev nD) : V6 m (outs m) c = C6 m c := by
  show Function.update (V5 m c) main_v36 (C6 m c main_v36) = C6 m c
  rw [C6_self]; rfl
theorem V7_eq (c : Dev nD) : V7 m (outs m) c = C7 m c := by
  show StableHlo.after hostOps1 (V6 m (outs m) c) = _; rw [V6_eq]
theorem V8_eq (c : Dev nD) : V8 m (outs m) c = C8 m c := by
  show Function.update (V7 m (outs m) c) main_v50 (C8 m c main_v50) = C8 m c
  rw [C8_self, V7_eq]; rfl
theorem V9_eq (c : Dev nD) : V9 m (outs m) c = C9 m c := by
  show Function.update (V8 m (outs m) c) main_v51 (C9 m c main_v51) = C9 m c
  rw [C9_self, V8_eq]; rfl
theorem V10_eq (c : Dev nD) : V10 m (outs m) c = C10 m c := by
  show StableHlo.after hostOps3 (V9 m (outs m) c) = _; rw [V9_eq]
theorem V11_eq (c : Dev nD) : V11 m (outs m) c = C11 m c := by
  show Function.update (V10 m (outs m) c) main_v65 (C11 m c main_v65) = C11 m c
  rw [C11_self, V10_eq]; rfl
theorem V12_eq (c : Dev nD) : V12 m (outs m) c = C12 m c := by
  show Function.update (V11 m (outs m) c) main_v66 (C12 m c main_v66) = C12 m c
  rw [C12_self, V11_eq]; rfl
theorem V13_eq (c : Dev nD) : V13 m (outs m) c = C13 m c := by
  show StableHlo.after hostOps5 (V12 m (outs m) c) = _; rw [V12_eq]
theorem V14_eq (c : Dev nD) : V14 m (outs m) c = C14 m c := by
  show Function.update (V13 m (outs m) c) main_v80 (C14 m c main_v80) = C14 m c
  rw [C14_self, V13_eq]; rfl
theorem V15_eq (c : Dev nD) : V15 m (outs m) c = C15 m c := by
  show StableHlo.after hostOps6 (V14 m (outs m) c) = _; rw [V14_eq]
theorem V16_eq (c : Dev nD) : V16 m (outs m) c = C16 m c := by
  show Function.update (V15 m (outs m) c) main_v88 (C16 m c main_v88) = C16 m c
  rw [C16_self, V15_eq]; rfl
theorem V17_eq (c : Dev nD) : V17 m (outs m) c = C17 m c := by
  show StableHlo.after hostOps7 (V16 m (outs m) c) = _; rw [V16_eq]

def pdats : (p : Fin 7) → (c : Dev nD) → Dat τ (Elt F) Unit ℕ (UR sig nD τ) ℕ (cfgs p) c
  | ⟨0, _⟩ => fun c => dat0 (tc (C5 m)) c
  | ⟨1, _⟩ => fun c => dat1 (tc (C7 m)) c
  | ⟨2, _⟩ => fun c => dat2 (tc (C8 m)) c
  | ⟨3, _⟩ => fun c => dat3 (tc (C10 m)) c
  | ⟨4, _⟩ => fun c => dat4 (tc (C11 m)) c
  | ⟨5, _⟩ => fun c => dat5 (tc (C13 m)) c
  | ⟨6, _⟩ => fun c => dat6 (tc (C15 m)) c
abbrev 𝒱₀ : Variants := Variants.none
abbrev L : GSem nD τ sig → Finset Unit := fun _ => ∅
abbrev lv : GSem nD τ sig → Unit → ℕ := fun _ _ => 0
abbrev Rest (c : Dev nD) : sProp 𝕄 := iprop((∃ r, prngReg c r) ∗ ∃ W, owes (c : Thread nD τ) (0 : CellTallies nD τ sig Unit) W)

theorem toPhiA (p : Fin 7) (c : Dev nD) (P : sProp 𝕄) :
    iprop((∃ r, prngReg c r) ∗ P ∗ Pipeline.scopedRest (Ix := Unit) (Name := ℕ) (U := UR sig nD τ) (Lvl := ℕ) (Val := Elt F) (cfgs p).spec c) ⊢ Pipeline.ΦA (cfgs p).spec c := by
  unfold Pipeline.ΦA
  iintro ⟨Hp, -, Hr⟩
  isplitl [Hr]; · iexact Hr
  iexact Hp
theorem ofPhiA (p : Fin 7) (c : Dev nD) :
    (Pipeline.ΦA (cfgs p).spec c : sProp 𝕄) ⊢ iprop((∃ r, prngReg c r) ∗ emp ∗ Pipeline.scopedRest (Ix := Unit) (Name := ℕ) (U := UR sig nD τ) (Lvl := ℕ) (Val := Elt F) (cfgs p).spec c) := by
  unfold Pipeline.ΦA
  iintro ⟨Hr, Hp⟩
  isplitl [Hp]; · iexact Hp
  isplitr; · iempintro
  iexact Hr

-- A region whose windows are all inputs but one changes that window's array only: the windows' arrays are distinct.
set_option backward.isDefEq.respectTransparency.types false in
def regOf (p : Fin 7) (lf : Pipeline.LaunchFacts (nD := nD) (τ := τ) cfgs p) (Cin Cout : Dev nD → Valuation τ sig (Elt F))
    (hbody : ∀ c, Pipeline.BodyObligationLoose (pdats m p c) defs₀ 𝒱₀ () Set.univ)
    (howed : ∀ c t, (pdats m p c).owed t = 0) (hrec : ∀ c x, x ∈ (pdats m p c).recorded 0) (hq : ∀ c w, (pdats m p c).q w = fullShare)
    (hA : ∀ c w, (pdats m p c).A w = tc Cin c (Pipeline.arrRef (cfgs p).spec w))
    (hin : ∀ c, Pipeline.ΦA (cfgs p).spec c ⊢ (pdats m p c).Φ 0)
    (hout : ∀ c, (pdats m p c).Φ (Fin.last _) ⊢ Pipeline.ΦA (cfgs p).spec c)
    (wo : Fin (cfgs p).W) (hio : ∀ w, w ≠ wo → ((cfgs p).win w).isOut = false)
    (hC : ∀ c, Cout c = Function.update (Cin c) (Pipeline.arrRef (cfgs p).spec wo) ((pdats m p c).arrAt wo (cfgs p).N)) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Cin c) ∗ Rest c)
  post c := iprop(StableHlo.held (c : Thread nD τ) (Pipeline.ucRefs τ sig) (Cout c) ∗ Rest c)
  X c := iprop(∃ r, prngReg c r)
  Y c := iprop(∃ r, prngReg c r)
  Z c := Pipeline.unscopedRest (Ix := Unit) (Name := ℕ) (U := UR sig nD τ) (Lvl := ℕ) (cfgs p).spec c (tc Cin c)
  hentry c := by
    rw [Pipeline.ownSems0_none]
    have hsplit := Pipeline.arrays_of_unscopedBufs (p := p) (pcfgs (F := F)) adm (pdats m) lf.win lf.arr_whole c
      ((pdats m p c).share_full (hq c)) (tc Cin c) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin; rw [howed c 0]
    icases HO with ⟨%W, HO⟩; iexists W; isplitr; · ipureintro; exact fun x _ => Or.inl (hrec c x)
    iexact HO
  hin c := (toPhiA p c _).trans (hin c)
  hout c := by rw [Pipeline.ownSems0_none]; exact (hout c).trans (ofPhiA p c)
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (tc Cin c) (tc Cout c) ((pdats m p c).arrAt · (cfgs p).N)
      (fun w => by
        show _ = Cout c _
        rw [hC c]
        by_cases h : w = wo
        · subst h; exact (Function.update_self (Proc.devRef .tc (Pipeline.arrRef (cfgs p).spec w) : DevRef τ sig) _ (Cin c)).symm
        · exact (((pdats m p c).arrAt_in w (hio w h) _).trans (hA c w)).trans (upd_ne _ _ _ _ fun e => h (lf.win.arr_inj e)).symm)
      (fun b hb => by
        show Cout c _ = _
        rw [hC c]
        exact upd_ne _ _ _ _ fun e => hb (Finset.mem_image.mpr ⟨wo, Finset.mem_univ _, e.symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c _]
    icases HO with ⟨%W, -, HO⟩; iexists W; iexact HO

def reg0 : RegionSeg (pcfgs (F := F)) adm (pdats m) () defs₀ 𝒱₀ L lv 0 :=
  regOf m 0 launch0 (C5 m) (C6 m) (fun c => (body_obligation0 (tc (C5 m)) c).loose) (fun _ _ => rfl) (fun _ _ => trivial) (fun _ _ => rfl) (fun _ _ => rfl)
    (fun _ => .rfl) (fun _ => .rfl) 2 (by decide) (fun _ => rfl)
def reg1 : RegionSeg (pcfgs (F := F)) adm (pdats m) () defs₀ 𝒱₀ L lv 1 :=
  regOf m 1 launch1 (C7 m) (C8 m) (fun c => (body_obligation1 (tc (C7 m)) c).loose) (fun _ _ => rfl) (fun _ _ => trivial) (fun _ _ => rfl) (fun _ _ => rfl)
    (fun _ => .rfl) (fun _ => .rfl) 2 (by decide) (fun _ => rfl)
def reg2 : RegionSeg (pcfgs (F := F)) adm (pdats m) () defs₀ 𝒱₀ L lv 2 :=
  regOf m 2 launch2 (C8 m) (C9 m) (fun c => (body_obligation2 (tc (C8 m)) c).loose) (fun _ _ => rfl) (fun _ _ => trivial) (fun _ _ => rfl) (fun _ _ => rfl)
    (fun _ => .rfl) (fun _ => .rfl) 2 (by decide) (fun _ => rfl)
def reg3 : RegionSeg (pcfgs (F := F)) adm (pdats m) () defs₀ 𝒱₀ L lv 3 :=
  regOf m 3 launch3 (C10 m) (C11 m) (fun c => (body_obligation3 (tc (C10 m)) c).loose) (fun _ _ => rfl) (fun _ _ => trivial) (fun _ _ => rfl) (fun _ _ => rfl)
    (fun _ => .rfl) (fun _ => .rfl) 2 (by decide) (fun _ => rfl)
def reg4 : RegionSeg (pcfgs (F := F)) adm (pdats m) () defs₀ 𝒱₀ L lv 4 :=
  regOf m 4 launch4 (C11 m) (C12 m) (fun c => (body_obligation4 (tc (C11 m)) c).loose) (fun _ _ => rfl) (fun _ _ => trivial) (fun _ _ => rfl) (fun _ _ => rfl)
    (fun _ => .rfl) (fun _ => .rfl) 2 (by decide) (fun _ => rfl)
def reg5 : RegionSeg (pcfgs (F := F)) adm (pdats m) () defs₀ 𝒱₀ L lv 5 :=
  regOf m 5 launch5 (C13 m) (C14 m) (fun c => (body_obligation5 (tc (C13 m)) c).loose) (fun _ _ => rfl) (fun _ _ => trivial) (fun _ _ => rfl) (fun _ _ => rfl)
    (fun _ => .rfl) (fun _ => .rfl) 2 (by decide) (fun _ => rfl)
def reg6 : RegionSeg (pcfgs (F := F)) adm (pdats m) () defs₀ 𝒱₀ L lv 6 :=
  regOf m 6 launch6 (C15 m) (C16 m) (fun c => (body_obligation6 (tc (C15 m)) c).loose) (fun _ _ => rfl) (fun _ _ => trivial) (fun _ _ => rfl) (fun _ _ => rfl)
    (hin6 (tc (C15 m))) (hout6 (tc (C15 m))) 2 (by decide) (fun _ => rfl)

abbrev Tlast (c : Dev nD) : sProp 𝕄 := iprop(StableHlo.held (c : Thread nD τ) (Pipeline.ucRefs τ sig) (C17 m c) ∗ ∃ r, prngReg c r)

-- Equal contents give the same thread state.
theorem held_congr (c : Dev nD) {W W' : Valuation τ sig (Elt F)} (h : W = W') :
    iprop(StableHlo.held (c : Thread nD τ) (Pipeline.ucRefs τ sig) W ∗ Rest c) ⊢ iprop(StableHlo.held (c : Thread nD τ) (Pipeline.ucRefs τ sig) W' ∗ Rest (F := F) c) := h ▸ .rfl
theorem hlast (c : Dev nD) : iprop(StableHlo.held (c : Thread nD τ) (Pipeline.ucRefs τ sig) (V17 m (outs m) c) ∗ Rest c) ⊢ iprop(Tlast m c ∗ ∃ W, owes (c : Thread nD τ) (0 : CellTallies nD τ sig Unit) W) := by
  rw [V17_eq]
  iintro ⟨Hh, Hp, HO⟩
  isplitl [Hh Hp]
  · isplitl [Hh]; · iexact Hh
    iexact Hp
  iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- Every weakly fair execution ends with every unscoped buffer at the last boundary's contents.
set_option backward.isDefEq.respectTransparency.types false in
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = C17 m c b) := by
  refine Pipeline.θ_run_regions_kit_dev (pcfgs (F := F)) adm (pdats m) () cellOf_inj emb₁ defs₀ 𝒱₀ L lv m ρ main
    (segs m (outs m) 𝒱₀ L lv (fun _ => Rest) () (pdats m) (reg0 m) (reg1 m) (reg2 m) (reg3 m) (reg4 m) (reg5 m) (reg6 m))
    (fun c Q => by
      rewrite [main_chain c, Seg.run_eq_chain,
        show (segs m (outs m) 𝒱₀ L lv (fun _ => Rest) () (pdats m) (reg0 m) (reg1 m) (reg2 m) (reg3 m) (reg4 m) (reg5 m) (reg6 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (fun c => by simp only [segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := Tlast m)
    (hch := fun c => ⟨.rfl, .rfl, .rfl, .rfl, .rfl,
      .rfl, held_congr c (V6_eq m c).symm,
      held_congr c (V7_eq m c), .rfl,
      held_congr c (V9_eq m c).symm,
      held_congr c (V10_eq m c), .rfl,
      held_congr c (V12_eq m c).symm,
      held_congr c (V13_eq m c), held_congr c (V14_eq m c).symm,
      held_congr c (V15_eq m c), held_congr c (V16_eq m c).symm,
      hlast m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = C17 m c b)
    (hfin := fun c s' => by
      iintro ⟨⟨Hh, -⟩, HSI⟩
      unfold StableHlo.held
      imodintro
      iapply (pointsTo_read_all (Pipeline.ucRefs τ sig) (fun b => (((c : Thread nD τ)).1, b)) (C17 m c) s')
      isplitl [Hh] <;> iassumption)
    (hQ := fun _ h => h)

-- A buffer the last contents hold as launched ends as launched.
theorem kept (c : Dev nD) {mem : (ℓ : Loc nD τ sig) → Buf (Elt F) ℓ} (h : ∀ b ∈ Pipeline.ucRefs τ sig, mem (((c : Thread nD τ)).1, b) = C17 m c b)
    (r : Ref sig .tc) (hs : ¬ (Proc.devRef .tc r : DevRef τ sig).isScoped) (e : V17 m (outs m) c r = m ((c : Thread nD τ).loc r)) :
    mem ((c.tc : Thread nD τ).loc r) = m ((c.tc : Thread nD τ).loc r) :=
  (h _ (mem_uc r hs)).trans ((congrFun (V17_eq m c).symm _).trans e)

-- No host operation and no region writes an argument array, so the last contents hold them as launched.
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨kept m c (h c) main_arg0 (by decide) (V17_main_arg0 m (outs m) c),
     kept m c (h c) main_arg1 (by decide) (V17_main_arg1 m (outs m) c),
     kept m c (h c) main_arg2 (by decide) (V17_main_arg2 m (outs m) c),
     kept m c (h c) main_arg3 (by decide) (V17_main_arg3 m (outs m) c),
     kept m c (h c) main_arg4 (by decide) (V17_main_arg4 m (outs m) c),
     kept m c (h c) main_arg5 (by decide) (V17_main_arg5 m (outs m) c),
     kept m c (h c) main_arg6 (by decide) (V17_main_arg6 m (outs m) c),
     kept m c (h c) main_arg7 (by decide) (V17_main_arg7 m (outs m) c),
     kept m c (h c) main_arg8 (by decide) (V17_main_arg8 m (outs m) c),
     kept m c (h c) main_arg9 (by decide) (V17_main_arg9 m (outs m) c)⟩)
    (run_all m ρ)

end Cert.Kernel.Hand

end
-- ==== Proof.KiR0.lean ====
import proofs.«400334_j4698694221926_1_alg».proof.Proof.Gen.KernelIdeal.Launch
import proofs.«400334_j4698694221926_1_alg».proof.Proof.Gen.KernelIdeal.Skeleton
import proofs.«400334_j4698694221926_1_alg».proof.Proof.Gen.KernelIdeal.Points
import proofs.«400334_j4698694221926_1_alg».proof.Proof.LibRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem Idealize.SL.ProofMode
open Idealize.ShloMosaic.Pipeline (Dat BodyObligation)
open Cert.LibRegion (Body3)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

abbrev rx0 : Rect S10000x128 := Rect.unit (s := S10000x128) ![0, 0] S10000x128.size inb_S10000x128_S10000x128_0_0
abbrev rw0 : Rect S128x128 := Rect.unit (s := S128x128) ![0, 0] S128x128.size inb_S128x128_S128x128_0_0
abbrev ro0 : Rect S10000x128 := Rect.unit (s := S10000x128) ![0, 0] S10000x128.size inb_S10000x128_S10000x128_0_0

def out0_2 (x0 : Vec F S10000x128 .f32) (x1 : Vec F S128x128 .f32) : Vec F S10000x128 .f32 :=
  View.canon [⟨ro0, k0_pay1 (View.ld x0 rx0) (View.ld x1 rw0)⟩]

theorem cover0_2 (p0 : Vec F S10000x128 .f32) (y : S10000x128.Idx) :
    ∃ pc ∈ ([⟨ro0, p0⟩] : List (View.Piece (Elt F) S10000x128 .f32)), y ∈ pc.1.set :=
  View.cover_of_tiled [⟨ro0, p0⟩] S10000x128.size (by rfl) y

theorem sound_kernel0 (c : Dev nD) (E : Set ℕ) (i : grid0.Coords) (arg1 : Memref sig .tc .vmem S10000x128 .f32) (harg1 : arg1.IsWhole)
    (arg2 : Memref sig .tc .vmem S128x128 .f32) (harg2 : arg2.IsWhole) (arg3 : Memref sig .tc .vmem S10000x128 .f32) (harg3 : arg3.IsWhole) :
    ∀ x0 x1, Body3 (wp frame (wpE (defs₀ (F := F)) Variants.none c none) E (cc0__linear_kernel i arg1 harg1 arg2 harg2 arg3 harg3) : sWPT 𝕄 _)
      c arg1 arg2 arg3 x0 x1 (out0_2 x0 x1) :=
  Body3.intro fun f0 f1 f2 K => by
    simp only [cc0__linear_kernel_eq_skeleton]; unfold cc0__linear_kernel_skel
    iintro ⟨H0, H1, H2, Hk⟩
    sl_exec
    sl_step
    iapply Hk
    iframe H0 H1
    iexists _; isplitr
    swap; · iexact H2
    ipureintro
    exact View.read_writes_eq_canon _ _ _ (cover0_2 _)

def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]

theorem after0_2 (c : Dev nD) (t : Fin cfg0.N) : (dat0 V c).after 2 t = out0_2 (iblk0 V c 0 t) (iblk0 V c 1 t) := by dsimp only [dat0]

theorem body_obligation0 (c : Dev nD) : BodyObligation (dat0 (F := F) V c) (defs₀ (F := F)) Variants.none () Set.univ := fun t => by
  rw [bigSep_W0, bigSep_W0]
  sl_whnfR [defs₀, Defs.onTc]
  exact (sound_kernel0 c Set.univ _ _ _ _ _ _ _ (iblk0 V c 0 t) (iblk0 V c 1 t)).point
    ((dat0 V c).before_in_eq_fetched 0 rfl (fun _ => rfl) (fun _ _ _ => rfl) (fun _ => rfl) t)
    ((dat0 V c).before_in_eq_fetched 1 rfl (fun _ => rfl) (fun _ _ _ => rfl) (fun _ => rfl) t)
    (by dsimp only [dat0]) (by dsimp only [dat0]) (after0_2 V c t) _ _

end Cert.KernelIdeal.Hand

end
-- ==== Proof.KiR1.lean ====
import proofs.«400334_j4698694221926_1_alg».proof.Proof.Gen.KernelIdeal.Launch
import proofs.«400334_j4698694221926_1_alg».proof.Proof.Gen.KernelIdeal.Skeleton
import proofs.«400334_j4698694221926_1_alg».proof.Proof.Gen.KernelIdeal.Points
import proofs.«400334_j4698694221926_1_alg».proof.Proof.LibRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem Idealize.SL.ProofMode
open Idealize.ShloMosaic.Pipeline (Dat BodyObligation)
open Cert.LibRegion (Body3)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

abbrev rx1 : Rect S10000x128 := Rect.unit (s := S10000x128) ![0, 0] S10000x128.size inb_S10000x128_S10000x128_0_0
abbrev rw1 : Rect S128 := Rect.unit (s := S128) ![0] S128.size inb_S128_S128_0
abbrev ro1 : Rect S10000x128 := Rect.unit (s := S10000x128) ![0, 0] S10000x128.size inb_S10000x128_S10000x128_0_0

def out1_2 (x0 : Vec F S10000x128 .f32) (x1 : Vec F S128 .f32) : Vec F S10000x128 .f32 :=
  View.canon [⟨ro1, k1_pay1 (View.ld x0 rx1) (View.ld x1 rw1)⟩]

theorem cover1_2 (p0 : Vec F S10000x128 .f32) (y : S10000x128.Idx) :
    ∃ pc ∈ ([⟨ro1, p0⟩] : List (View.Piece (Elt F) S10000x128 .f32)), y ∈ pc.1.set :=
  View.cover_of_tiled [⟨ro1, p0⟩] S10000x128.size (by rfl) y

theorem sound_kernel1 (c : Dev nD) (E : Set ℕ) (i : grid1.Coords) (arg1 : Memref sig .tc .vmem S10000x128 .f32) (harg1 : arg1.IsWhole)
    (arg2 : Memref sig .tc .vmem S128 .f32) (harg2 : arg2.IsWhole) (arg3 : Memref sig .tc .vmem S10000x128 .f32) (harg3 : arg3.IsWhole) :
    ∀ x0 x1, Body3 (wp frame (wpE (defs₀ (F := F)) Variants.none c none) E (cc1__bias_act_kernel i arg1 harg1 arg2 harg2 arg3 harg3) : sWPT 𝕄 _)
      c arg1 arg2 arg3 x0 x1 (out1_2 x0 x1) :=
  Body3.intro fun f0 f1 f2 K => by
    simp only [cc1__bias_act_kernel_eq_skeleton]; unfold cc1__bias_act_kernel_skel
    iintro ⟨H0, H1, H2, Hk⟩
    sl_exec
    sl_step
    iapply Hk
    iframe H0 H1
    iexists _; isplitr
    swap; · iexact H2
    ipureintro
    exact View.read_writes_eq_canon _ _ _ (cover1_2 _)

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => out1_2 (iblk1 V c 0 t) (iblk1 V c 1 t)
  Φ _ := Pipeline.ΦA spec1 c
  q _ := fullShare
  owed _ := 0

theorem A_eq1 (c : Dev nD) (w : Fin cfg1.W) : (dat1 V c).A w = V c (Pipeline.arrRef spec1 w) := by
  dsimp only [dat1]

theorem after1_2 (c : Dev nD) (t : Fin cfg1.N) : (dat1 V c).after 2 t = out1_2 (iblk1 V c 0 t) (iblk1 V c 1 t) := by dsimp only [dat1]

theorem body_obligation1 (c : Dev nD) : BodyObligation (dat1 (F := F) V c) (defs₀ (F := F)) Variants.none () Set.univ := fun t => by
  rw [bigSep_W1, bigSep_W1]
  sl_whnfR [defs₀, Defs.onTc]
  exact (sound_kernel1 c Set.univ _ _ _ _ _ _ _ (iblk1 V c 0 t) (iblk1 V c 1 t)).point
    ((dat1 V c).before_in_eq_fetched 0 rfl (fun _ => rfl) (fun _ _ _ => rfl) (fun _ => rfl) t)
    ((dat1 V c).before_in_eq_fetched 1 rfl (fun _ => rfl) (fun _ _ _ => rfl) (fun _ => rfl) t)
    (by dsimp only [dat1]) (by dsimp only [dat1]) (after1_2 V c t) _ _

end Cert.KernelIdeal.Hand

end
-- ==== Proof.KiR2.lean ====
import proofs.«400334_j4698694221926_1_alg».proof.Proof.Gen.KernelIdeal.Launch
import proofs.«400334_j4698694221926_1_alg».proof.Proof.Gen.KernelIdeal.Skeleton
import proofs.«400334_j4698694221926_1_alg».proof.Proof.Gen.KernelIdeal.Points
import proofs.«400334_j4698694221926_1_alg».proof.Proof.LibRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem Idealize.SL.ProofMode
open Idealize.ShloMosaic.Pipeline (Dat BodyObligation)
open Cert.LibRegion (Body3)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

abbrev rx2 : Rect S10000x128 := Rect.unit (s := S10000x128) ![0, 0] S10000x128.size inb_S10000x128_S10000x128_0_0
abbrev rw2 : Rect S128x128 := Rect.unit (s := S128x128) ![0, 0] S128x128.size inb_S128x128_S128x128_0_0
abbrev ro2 : Rect S10000x128 := Rect.unit (s := S10000x128) ![0, 0] S10000x128.size inb_S10000x128_S10000x128_0_0

def out2_2 (x0 : Vec F S10000x128 .f32) (x1 : Vec F S128x128 .f32) : Vec F S10000x128 .f32 :=
  View.canon [⟨ro2, k2_pay1 (View.ld x0 rx2) (View.ld x1 rw2)⟩]

theorem cover2_2 (p0 : Vec F S10000x128 .f32) (y : S10000x128.Idx) :
    ∃ pc ∈ ([⟨ro2, p0⟩] : List (View.Piece (Elt F) S10000x128 .f32)), y ∈ pc.1.set :=
  View.cover_of_tiled [⟨ro2, p0⟩] S10000x128.size (by rfl) y

theorem sound_kernel2 (c : Dev nD) (E : Set ℕ) (i : grid2.Coords) (arg1 : Memref sig .tc .vmem S10000x128 .f32) (harg1 : arg1.IsWhole)
    (arg2 : Memref sig .tc .vmem S128x128 .f32) (harg2 : arg2.IsWhole) (arg3 : Memref sig .tc .vmem S10000x128 .f32) (harg3 : arg3.IsWhole) :
    ∀ x0 x1, Body3 (wp frame (wpE (defs₀ (F := F)) Variants.none c none) E (cc2__linear_kernel i arg1 harg1 arg2 harg2 arg3 harg3) : sWPT 𝕄 _)
      c arg1 arg2 arg3 x0 x1 (out2_2 x0 x1) :=
  Body3.intro fun f0 f1 f2 K => by
    simp only [cc2__linear_kernel_eq_skeleton]; unfold cc2__linear_kernel_skel
    iintro ⟨H0, H1, H2, Hk⟩
    sl_exec
    sl_step
    iapply Hk
    iframe H0 H1
    iexists _; isplitr
    swap; · iexact H2
    ipureintro
    exact View.read_writes_eq_canon _ _ _ (cover2_2 _)

def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => out2_2 (iblk2 V c 0 t) (iblk2 V c 1 t)
  Φ _ := Pipeline.ΦA spec2 c
  q _ := fullShare
  owed _ := 0

theorem A_eq2 (c : Dev nD) (w : Fin cfg2.W) : (dat2 V c).A w = V c (Pipeline.arrRef spec2 w) := by
  dsimp only [dat2]

theorem after2_2 (c : Dev nD) (t : Fin cfg2.N) : (dat2 V c).after 2 t = out2_2 (iblk2 V c 0 t) (iblk2 V c 1 t) := by dsimp only [dat2]

theorem body_obligation2 (c : Dev nD) : BodyObligation (dat2 (F := F) V c) (defs₀ (F := F)) Variants.none () Set.univ := fun t => by
  rw [bigSep_W2, bigSep_W2]
  sl_whnfR [defs₀, Defs.onTc]
  exact (sound_kernel2 c Set.univ _ _ _ _ _ _ _ (iblk2 V c 0 t) (iblk2 V c 1 t)).point
    ((dat2 V c).before_in_eq_fetched 0 rfl (fun _ => rfl) (fun _ _ _ => rfl) (fun _ => rfl) t)
    ((dat2 V c).before_in_eq_fetched 1 rfl (fun _ => rfl) (fun _ _ _ => rfl) (fun _ => rfl) t)
    (by dsimp only [dat2]) (by dsimp only [dat2]) (after2_2 V c t) _ _

end Cert.KernelIdeal.Hand

end
-- ==== Proof.KiR3.lean ====
import proofs.«400334_j4698694221926_1_alg».proof.Proof.Gen.KernelIdeal.Launch
import proofs.«400334_j4698694221926_1_alg».proof.Proof.Gen.KernelIdeal.Skeleton
import proofs.«400334_j4698694221926_1_alg».proof.Proof.Gen.KernelIdeal.Points
import proofs.«400334_j4698694221926_1_alg».proof.Proof.LibRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem Idealize.SL.ProofMode
open Idealize.ShloMosaic.Pipeline (Dat BodyObligation)
open Cert.LibRegion (Body3)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk3 (c : Dev nD) (w : Fin cfg3.W) (t : Fin cfg3.N) : ((cfg3.win w).xblock (cfg3.grid.coords t)).Idx → Elt F (cfg3.win w).elt :=
  ((cfg3.win w).blk t).view.read (Elt F) (V c (Pipeline.arrRef spec3 w))

abbrev rx3 : Rect S10000x128 := Rect.unit (s := S10000x128) ![0, 0] S10000x128.size inb_S10000x128_S10000x128_0_0
abbrev rw3 : Rect S128 := Rect.unit (s := S128) ![0] S128.size inb_S128_S128_0
abbrev ro3 : Rect S10000x128 := Rect.unit (s := S10000x128) ![0, 0] S10000x128.size inb_S10000x128_S10000x128_0_0

def out3_2 (x0 : Vec F S10000x128 .f32) (x1 : Vec F S128 .f32) : Vec F S10000x128 .f32 :=
  View.canon [⟨ro3, k3_pay1 (View.ld x0 rx3) (View.ld x1 rw3)⟩]

theorem cover3_2 (p0 : Vec F S10000x128 .f32) (y : S10000x128.Idx) :
    ∃ pc ∈ ([⟨ro3, p0⟩] : List (View.Piece (Elt F) S10000x128 .f32)), y ∈ pc.1.set :=
  View.cover_of_tiled [⟨ro3, p0⟩] S10000x128.size (by rfl) y

theorem sound_kernel3 (c : Dev nD) (E : Set ℕ) (i : grid3.Coords) (arg1 : Memref sig .tc .vmem S10000x128 .f32) (harg1 : arg1.IsWhole)
    (arg2 : Memref sig .tc .vmem S128 .f32) (harg2 : arg2.IsWhole) (arg3 : Memref sig .tc .vmem S10000x128 .f32) (harg3 : arg3.IsWhole) :
    ∀ x0 x1, Body3 (wp frame (wpE (defs₀ (F := F)) Variants.none c none) E (cc3__bias_act_kernel i arg1 harg1 arg2 harg2 arg3 harg3) : sWPT 𝕄 _)
      c arg1 arg2 arg3 x0 x1 (out3_2 x0 x1) :=
  Body3.intro fun f0 f1 f2 K => by
    simp only [cc3__bias_act_kernel_eq_skeleton]; unfold cc3__bias_act_kernel_skel
    iintro ⟨H0, H1, H2, Hk⟩
    sl_exec
    sl_step
    iapply Hk
    iframe H0 H1
    iexists _; isplitr
    swap; · iexact H2
    ipureintro
    exact View.read_writes_eq_canon _ _ _ (cover3_2 _)

def dat3 (c : Dev nD) : Dat τ (Elt F) Unit ℕ (UR sig nD τ) ℕ cfg3 c where
  A w := V c (Pipeline.arrRef spec3 w)
  after w t := match w with
    | ⟨0, _⟩ => iblk3 V c 0 t
    | ⟨1, _⟩ => iblk3 V c 1 t
    | ⟨2, _⟩ => out3_2 (iblk3 V c 0 t) (iblk3 V c 1 t)
  Φ _ := Pipeline.ΦA spec3 c
  q _ := fullShare
  owed _ := 0

theorem A_eq3 (c : Dev nD) (w : Fin cfg3.W) : (dat3 V c).A w = V c (Pipeline.arrRef spec3 w) := by
  dsimp only [dat3]

theorem after3_2 (c : Dev nD) (t : Fin cfg3.N) : (dat3 V c).after 2 t = out3_2 (iblk3 V c 0 t) (iblk3 V c 1 t) := by dsimp only [dat3]

theorem body_obligation3 (c : Dev nD) : BodyObligation (dat3 (F := F) V c) (defs₀ (F := F)) Variants.none () Set.univ := fun t => by
  rw [bigSep_W3, bigSep_W3]
  sl_whnfR [defs₀, Defs.onTc]
  exact (sound_kernel3 c Set.univ _ _ _ _ _ _ _ (iblk3 V c 0 t) (iblk3 V c 1 t)).point
    ((dat3 V c).before_in_eq_fetched 0 rfl (fun _ => rfl) (fun _ _ _ => rfl) (fun _ => rfl) t)
    ((dat3 V c).before_in_eq_fetched 1 rfl (fun _ => rfl) (fun _ _ _ => rfl) (fun _ => rfl) t)
    (by dsimp only [dat3]) (by dsimp only [dat3]) (after3_2 V c t) _ _

end Cert.KernelIdeal.Hand

end
-- ==== Proof.KiR4.lean ====
import proofs.«400334_j4698694221926_1_alg».proof.Proof.Gen.KernelIdeal.Launch
import proofs.«400334_j4698694221926_1_alg».proof.Proof.Gen.KernelIdeal.Skeleton
import proofs.«400334_j4698694221926_1_alg».proof.Proof.Gen.KernelIdeal.Points
import proofs.«400334_j4698694221926_1_alg».proof.Proof.LibRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem Idealize.SL.ProofMode
open Idealize.ShloMosaic.Pipeline (Dat BodyObligation)
open Cert.LibRegion (Body3)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk4 (c : Dev nD) (w : Fin cfg4.W) (t : Fin cfg4.N) : ((cfg4.win w).xblock (cfg4.grid.coords t)).Idx → Elt F (cfg4.win w).elt :=
  ((cfg4.win w).blk t).view.read (Elt F) (V c (Pipeline.arrRef spec4 w))

abbrev rx4 : Rect S10000x128 := Rect.unit (s := S10000x128) ![0, 0] S10000x128.size inb_S10000x128_S10000x128_0_0
abbrev rw4 : Rect S128x64 := Rect.unit (s := S128x64) ![0, 0] S128x64.size inb_S128x64_S128x64_0_0
abbrev ro4 : Rect S10000x64 := Rect.unit (s := S10000x64) ![0, 0] S10000x64.size inb_S10000x64_S10000x64_0_0

def out4_2 (x0 : Vec F S10000x128 .f32) (x1 : Vec F S128x64 .f32) : Vec F S10000x64 .f32 :=
  View.canon [⟨ro4, k4_pay1 (View.ld x0 rx4) (View.ld x1 rw4)⟩]

theorem cover4_2 (p0 : Vec F S10000x64 .f32) (y : S10000x64.Idx) :
    ∃ pc ∈ ([⟨ro4, p0⟩] : List (View.Piece (Elt F) S10000x64 .f32)), y ∈ pc.1.set :=
  View.cover_of_tiled [⟨ro4, p0⟩] S10000x64.size (by rfl) y

theorem sound_kernel4 (c : Dev nD) (E : Set ℕ) (i : grid4.Coords) (arg1 : Memref sig .tc .vmem S10000x128 .f32) (harg1 : arg1.IsWhole)
    (arg2 : Memref sig .tc .vmem S128x64 .f32) (harg2 : arg2.IsWhole) (arg3 : Memref sig .tc .vmem S10000x64 .f32) (harg3 : arg3.IsWhole) :
    ∀ x0 x1, Body3 (wp frame (wpE (defs₀ (F := F)) Variants.none c none) E (cc4__linear_kernel i arg1 harg1 arg2 harg2 arg3 harg3) : sWPT 𝕄 _)
      c arg1 arg2 arg3 x0 x1 (out4_2 x0 x1) :=
  Body3.intro fun f0 f1 f2 K => by
    simp only [cc4__linear_kernel_eq_skeleton]; unfold cc4__linear_kernel_skel
    iintro ⟨H0, H1, H2, Hk⟩
    sl_exec
    sl_step
    iapply Hk
    iframe H0 H1
    iexists _; isplitr
    swap; · iexact H2
    ipureintro
    exact View.read_writes_eq_canon _ _ _ (cover4_2 _)

def dat4 (c : Dev nD) : Dat τ (Elt F) Unit ℕ (UR sig nD τ) ℕ cfg4 c where
  A w := V c (Pipeline.arrRef spec4 w)
  after w t := match w with
    | ⟨0, _⟩ => iblk4 V c 0 t
    | ⟨1, _⟩ => iblk4 V c 1 t
    | ⟨2, _⟩ => out4_2 (iblk4 V c 0 t) (iblk4 V c 1 t)
  Φ _ := Pipeline.ΦA spec4 c
  q _ := fullShare
  owed _ := 0

theorem A_eq4 (c : Dev nD) (w : Fin cfg4.W) : (dat4 V c).A w = V c (Pipeline.arrRef spec4 w) := by
  dsimp only [dat4]

theorem after4_2 (c : Dev nD) (t : Fin cfg4.N) : (dat4 V c).after 2 t = out4_2 (iblk4 V c 0 t) (iblk4 V c 1 t) := by dsimp only [dat4]

theorem body_obligation4 (c : Dev nD) : BodyObligation (dat4 (F := F) V c) (defs₀ (F := F)) Variants.none () Set.univ := fun t => by
  rw [bigSep_W4, bigSep_W4]
  sl_whnfR [defs₀, Defs.onTc]
  exact (sound_kernel4 c Set.univ _ _ _ _ _ _ _ (iblk4 V c 0 t) (iblk4 V c 1 t)).point
    ((dat4 V c).before_in_eq_fetched 0 rfl (fun _ => rfl) (fun _ _ _ => rfl) (fun _ => rfl) t)
    ((dat4 V c).before_in_eq_fetched 1 rfl (fun _ => rfl) (fun _ _ _ => rfl) (fun _ => rfl) t)
    (by dsimp only [dat4]) (by dsimp only [dat4]) (after4_2 V c t) _ _

end Cert.KernelIdeal.Hand

end
-- ==== Proof.KiR5.lean ====
import proofs.«400334_j4698694221926_1_alg».proof.Proof.Gen.KernelIdeal.Launch
import proofs.«400334_j4698694221926_1_alg».proof.Proof.Gen.KernelIdeal.Skeleton
import proofs.«400334_j4698694221926_1_alg».proof.Proof.Gen.KernelIdeal.Points
import proofs.«400334_j4698694221926_1_alg».proof.Proof.LibRegion

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.Sem Idealize.SL.ProofMode
open Idealize.ShloMosaic.Pipeline (Dat BodyObligation)
open Cert.LibRegion (Body3)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk5 (c : Dev nD) (w : Fin cfg5.W) (t : Fin cfg5.N) : ((cfg5.win w).xblock (cfg5.grid.coords t)).Idx → Elt F (cfg5.win w).elt :=
  ((cfg5.win w).blk t).view.read (Elt F) (V c (Pipeline.arrRef spec5 w))

abbrev rx5 : Rect S10000x64 := Rect.unit (s := S10000x64) ![0, 0] S10000x64.size inb_S10000x64_S10000x64_0_0
abbrev rw5 : Rect S64 := Rect.unit (s := S64) ![0] S64.size inb_S64_S64_0
abbrev ro5 : Rect S10000x64 := Rect.unit (s := S10000x64) ![0, 0] S10000x64.size inb_S10000x64_S10000x64_0_0

def out5_2 (x0 : Vec F S10000x64 .f32) (x1 : Vec F S64 .f32) : Vec F S10000x64 .f32 :=
  View.canon [⟨ro5, k5_pay1 (View.ld x0 rx5) (View.ld x1 rw5)⟩]

theorem cover5_2 (p0 : Vec F S10000x64 .f32) (y : S10000x64.Idx) :
    ∃ pc ∈ ([⟨ro5, p0⟩] : List (View.Piece (Elt F) S10000x64 .f32)), y ∈ pc.1.set :=
  View.cover_of_tiled [⟨ro5, p0⟩] S10000x64.size (by rfl) y

theorem sound_kernel5 (c : Dev nD) (E : Set ℕ) (i : grid5.Coords) (arg1 : Memref sig .tc .vmem S10000x64 .f32) (harg1 : arg1.IsWhole)
    (arg2 : Memref sig .tc .vmem S64 .f32) (harg2 : arg2.IsWhole) (arg3 : Memref sig .tc .vmem S10000x64 .f32) (harg3 : arg3.IsWhole) :
    ∀ x0 x1, Body3 (wp frame (wpE (defs₀ (F := F)) Variants.none c none) E (cc5__bias_act_kernel i arg1 harg1 arg2 harg2 arg3 harg3) : sWPT 𝕄 _)
      c arg1 arg2 arg3 x0 x1 (out5_2 x0 x1) :=
  Body3.intro fun f0 f1 f2 K => by
    simp only [cc5__bias_act_kernel_eq_skeleton]; unfold cc5__bias_act_kernel_skel
    iintro ⟨H0, H1, H2, Hk⟩
    sl_exec
    sl_step
    iapply Hk
    iframe H0 H1
    iexists _; isplitr
    swap; · iexact H2
    ipureintro
    exact View.read_writes_eq_canon _ _ _ (cover5_2 _)

def dat5 (c : Dev nD) : Dat τ (Elt F) Unit ℕ (UR sig nD τ) ℕ cfg5 c where
  A w := V c (Pipeline.arrRef spec5 w)
  after w t := match w with
    | ⟨0, _⟩ => iblk5 V c 0 t
    | ⟨1, _⟩ => iblk5 V c 1 t
    | ⟨2, _⟩ => out5_2 (iblk5 V c 0 t) (iblk5 V c 1 t)
  Φ _ := Pipeline.ΦA spec5 c
  q _ := fullShare
  owed _ := 0

theorem A_eq5 (c : Dev nD) (w : Fin cfg5.W) : (dat5 V c).A w = V c (Pipeline.arrRef spec5 w) := by
  dsimp only [dat5]

theorem after5_2 (c : Dev nD) (t : Fin cfg5.N) : (dat5 V c).after 2 t = out5_2 (iblk5 V c 0 t) (iblk5 V c 1 t) := by dsimp only [dat5]

theorem body_obligation5 (c : Dev nD) : BodyObligation (dat5 (F := F) V c) (defs₀ (F := F)) Variants.none () Set.univ := fun t => by
  rw [bigSep_W5, bigSep_W5]
  sl_whnfR [defs₀, Defs.onTc]
  exact (sound_kernel5 c Set.univ _ _ _ _ _ _ _ (iblk5 V c 0 t) (iblk5 V c 1 t)).point
    ((dat5 V c).before_in_eq_fetched 0 rfl (fun _ => rfl) (fun _ _ _ => rfl) (fun _ => rfl) t)
    ((dat5 V c).before_in_eq_fetched 1 rfl (fun _ => rfl) (fun _ _ _ => rfl) (fun _ => rfl) t)
    (by dsimp only [dat5]) (by dsimp only [dat5]) (after5_2 V c t) _ _

end Cert.KernelIdeal.Hand

end
-- ==== Proof.KiR6.lean ====
import proofs.«400334_j4698694221926_1_alg».proof.Proof.Gen.KernelIdeal.Launch
import proofs.«400334_j4698694221926_1_alg».proof.Proof.Gen.KernelIdeal.Skeleton
import proofs.«400334_j4698694221926_1_alg».proof.Proof.Gen.KernelIdeal.Points
import Idealize.ShloMosaic.Lib.Pipeline.FrameBody
import Idealize.ShloMosaic.Lib.Pipeline.Value
import Idealize.ShloMosaic.Lib.Pipeline.RegionsLoop
import Idealize.ShloMosaic.Lib.Pipeline.FrameSuffix
import Idealize.ShloMosaic.Lib.Ring
import Idealize.ShloMosaic.Lib.Tactic

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

def iblk6 (c : Dev nD) (w : Fin cfg6.W) (t : Fin cfg6.N) : ((cfg6.win w).xblock (cfg6.grid.coords t)).Idx → Elt F (cfg6.win w).elt :=
  ((cfg6.win w).blk t).view.read (Elt F) (V c (Pipeline.arrRef spec6 w))

abbrev rx6 : Rect S10000x64 := Rect.unit (s := S10000x64) ![0, 0] S10000x64.size inb_S10000x64_S10000x64_0_0
abbrev r64 : Rect S64x64 := Rect.unit (s := S64x64) ![0, 0] S64x64.size inb_S64x64_S64x64_0_0

def zero6 : Vec F S64x64 .f32 := View.canon [⟨r64, k6_pay1 (F := F)⟩]

def step6 (x0 : Vec F S10000x64 .f32) (x1 : Vec F S10000x64 .bf16) (a : Vec F S64x64 .f32) : Vec F S64x64 .f32 :=
  View.canon [⟨r64, k6_pay2 (View.ld x0 rx6) (View.ld x1 rx6) (View.ld a r64)⟩]

-- The accumulator after point n: the body's update folded over the points from the reset.
def acc6 (c : Dev nD) : (n : ℕ) → n < cfg6.N → Vec F S64x64 .f32
  | 0, h => step6 (iblk6 V c 0 ⟨0, h⟩) (iblk6 V c 1 ⟨0, h⟩) zero6
  | n + 1, h => step6 (iblk6 V c 0 ⟨n + 1, h⟩) (iblk6 V c 1 ⟨n + 1, h⟩) (acc6 c n (Nat.lt_of_succ_lt h))

def fin6 (a : Vec F S64x64 .f32) : Vec F S64x64 .f32 := View.canon [⟨r64, View.ld a r64⟩]

-- The invariant: after a point, the accumulator holds what that point left.
def PhiS6 (c : Dev nD) : (n : ℕ) → n ≤ cfg6.N → sProp 𝕄
  | 0, _ => Pipeline.ΦA spec6 c
  | n + 1, hn => iprop(owns (c : Thread nD τ) (Memref.whole cc6_scratch0 : Memref sig .tc .vmem S64x64 .f32) fullShare (acc6 V c n hn)
      ∗ Pipeline.scopedRestBut (Ix := Unit) (Name := ℕ) (U := UR sig nD τ) (Lvl := ℕ) (Val := Elt F) spec6 c [cc6_scratch0] ∗ (∃ r, prngReg c r))

def dat6 (c : Dev nD) : Dat τ (Elt F) Unit ℕ (UR sig nD τ) ℕ cfg6 c where
  A w := V c (Pipeline.arrRef spec6 w)
  after w t := match w with
    | ⟨0, _⟩ => iblk6 V c 0 t
    | ⟨1, _⟩ => iblk6 V c 1 t
    | ⟨2, _⟩ => fin6 (acc6 V c t.val t.isLt)
  Φ t := PhiS6 V c t.val (Nat.le_of_lt_succ t.isLt)
  q _ := fullShare
  owed _ := 0

theorem A_eq6 (c : Dev nD) (w : Fin cfg6.W) : (dat6 V c).A w = V c (Pipeline.arrRef spec6 w) := by
  dsimp only [dat6]
theorem after6_0 (c : Dev nD) (t : Fin cfg6.N) : (dat6 V c).after 0 t = iblk6 V c 0 t := by dsimp only [dat6]
theorem after6_1 (c : Dev nD) (t : Fin cfg6.N) : (dat6 V c).after 1 t = iblk6 V c 1 t := by dsimp only [dat6]
theorem after6_2 (c : Dev nD) (t : Fin cfg6.N) : (dat6 V c).after 2 t = fin6 (acc6 V c t.val t.isLt) := by dsimp only [dat6]

theorem zeros6 : (![0, 0] : Fin 2 → Nat) = fun _ => 0 := funext fun a => by fin_cases a <;> rfl

theorem before6_0 (c : Dev nD) (t : Fin cfg6.N) (d) : (dat6 V c).before 0 t d = iblk6 V c 0 t :=
  ((dat6 V c).before_in_eq_fetched 0 rfl (fun _ => rfl) (fun _ _ _ => rfl) (fun _ => rfl) t d).trans rfl
theorem before6_1 (c : Dev nD) (t : Fin cfg6.N) (d) : (dat6 V c).before 1 t d = iblk6 V c 1 t :=
  ((dat6 V c).before_in_eq_fetched 1 rfl (fun _ => rfl) (fun _ _ _ => rfl) (fun _ => rfl) t d).trans rfl

abbrev cond6_0 (i : grid6.Coords) : Prop := (Scalar.cmpi .ne (Scalar.extui (Scalar.cmpi .eq (BitVec.ofNat 32 (i 0).val) 0#32)) 0#32) = 1#1

theorem hcond6_0 : ∀ t : Fin cfg6.N, cond6_0 (grid6.coords t) ↔ t.val = 0 :=
  (by decide +kernel : ∀ t : Fin grid6.N, cond6_0 (grid6.coords t) ↔ t.val = 0)

abbrev cond6_1 (i : grid6.Coords) : Prop := k6_cond2 i = 1#1

theorem hcond6_1 : ∀ t : Fin cfg6.N, cond6_1 (grid6.coords t) ↔ t.val = 9 :=
  (by decide +kernel : ∀ t : Fin grid6.N, cond6_1 (grid6.coords t) ↔ t.val = 9)

theorem idleAt6_2 : ∀ t : Fin cfg6.N, ¬t.val = 9 → idle6 2 (grid6.coords t) = true := by decide +kernel

theorem noFlush6_2 : ∀ t : Fin cfg6.N, ¬t.val = 9 → (win6 2).flush t = false := by decide +kernel

theorem liveAt6_2 : ∀ t : Fin cfg6.N, t.val = 9 → idle6 2 (grid6.coords t) = false := by decide +kernel

theorem cover6 (p : Vec F S64x64 .f32) (L : List (View.Piece (Elt F) S64x64 .f32)) (y : S64x64.Idx) :
    ∃ pc ∈ ((⟨r64, p⟩ : View.Piece (Elt F) S64x64 .f32) :: L), y ∈ pc.1.set :=
  ⟨_, List.mem_cons.mpr (Or.inl rfl), View.mem_set_unit_zero (S := S64x64) zeros6 inb_S64x64_S64x64_0_0 y⟩

section Triples
variable (c : Dev nD) (E : Set ℕ) (i : grid6.Coords)
  (arg1 : Memref sig .tc .vmem S10000x64 .f32) (harg1 : arg1.IsWhole) (arg2 : Memref sig .tc .vmem S10000x64 .bf16) (harg2 : arg2.IsWhole)
  (arg3 : Memref sig .tc .vmem S64x64 .f32) (harg3 : arg3.IsWhole) (arg4 : Memref sig .tc .vmem S64x64 .f32) (harg4 : arg4.IsWhole)
  (x0 : Vec F S10000x64 .f32) (x1 : Vec F S10000x64 .bf16)

set_option maxHeartbeats 1000000 in
theorem sound_kernel6_B (hc0 : ¬cond6_0 i) (hc1 : ¬cond6_1 i) (a : Vec F S64x64 .f32) (K : PUnit → sProp 𝕄) :
    iprop(owns (c : Thread nD τ) arg1 fullShare x0 ∗ owns (c : Thread nD τ) arg2 fullShare x1 ∗ owns (c : Thread nD τ) arg4 fullShare a
        ∗ (iprop(owns (c : Thread nD τ) arg1 fullShare x0 ∗ owns (c : Thread nD τ) arg2 fullShare x1 ∗ owns (c : Thread nD τ) arg4 fullShare (step6 x0 x1 a)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  exact View.read_writes_eq_canon _ _ _ (cover6 _ _)

set_option maxHeartbeats 1000000 in
theorem sound_kernel6_A (hc0 : cond6_0 i) (hc1 : ¬cond6_1 i) (K : PUnit → sProp 𝕄) :
    iprop(owns (c : Thread nD τ) arg1 fullShare x0 ∗ owns (c : Thread nD τ) arg2 fullShare x1 ∗ (∃ d, owns (c : Thread nD τ) arg4 fullShare d)
        ∗ (iprop(owns (c : Thread nD τ) arg1 fullShare x0 ∗ owns (c : Thread nD τ) arg2 fullShare x1 ∗ owns (c : Thread nD τ) arg4 fullShare (step6 x0 x1 zero6)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%ds, %fs, -, HS⟩, Hk⟩
  subst hf0; subst hf1
  sl_exec (disch := first | exact hc0 | exact hc1)
  sl_step
  iapply Hk
  isplitl [H0]
  · iexists f0; isplitr; · ipureintro; rfl
    iexact H0
  isplitl [H1]
  · iexists f1; isplitr; · ipureintro; rfl
    iexact H1
  iexists _; isplitr
  swap; · iexact HS
  ipureintro
  rw [View.read_writes_eq_canon _ _ _ (cover6 _ _)]
  unfold step6
  sl_unfold_run_names
  simp only [View.canon_cons_unit_zero (S := S64x64) zeros6]
  rw [View.readCov_eq_canon_ld _ _ r64 (cover6 _ _)]
  rfl

set_option maxHeartbeats 1000000 in
theorem sound_kernel6_C (hc0 : ¬cond6_0 i) (hc1 : cond6_1 i) (a : Vec F S64x64 .f32) (K : PUnit → sProp 𝕄) :
    iprop(owns (c : Thread nD τ) arg1 fullShare x0 ∗ owns (c : Thread nD τ) arg2 fullShare x1 ∗ (∃ d, owns (c : Thread nD τ) arg3 fullShare d)
        ∗ owns (c : Thread nD τ) arg4 fullShare a
        ∗ (iprop(owns (c : Thread nD τ) arg1 fullShare x0 ∗ owns (c : Thread nD τ) arg2 fullShare x1
            ∗ owns (c : Thread nD τ) arg3 fullShare (fin6 (step6 x0 x1 a)) ∗ owns (c : Thread nD τ) arg4 fullShare (step6 x0 x1 a)) -∗ K ⟨⟩))
      ⊢ wp frame (wpE (defs₀ (F := F)) Variants.none c none) E (cc6__pool_kernel i arg1 harg1 arg2 harg2 arg3 harg3 arg4 harg4) K := by
  simp only [cc6__pool_kernel_eq_skeleton]; unfold cc6__pool_kernel_skel
  unfold owns
  iintro ⟨⟨%f0, %hf0, H0⟩, ⟨%f1, %hf1, H1⟩, ⟨%d3, %f3, -, H3⟩, ⟨%fs, %hfs, HS⟩, Hk⟩
  subst hf0; subst hf1; subst hfs
  sl_exec (disch := first | exact hc0 | exact hc1)
  sl_step
  iapply Hk
  isplitl [H0]
  · iexists f0; isplitr; · ipureintro; rfl
    iexact H0
  isplitl [H1]
  · iexists f1; isplitr; · ipureintro; rfl
    iexact H1
  isplitl [H3]
  · iexists _; isplitr
    swap; · iexact H3
    ipureintro
    rw [View.read_writes_eq_canon _ _ _ (cover6 _ _)]
    unfold fin6 step6
    sl_unfold_run_names
    rw [View.readCov_eq_canon_ld _ _ r64 (cover6 _ _)]
    rfl
  iexists _; isplitr
  swap; · iexact HS
  ipureintro
  exact View.read_writes_eq_canon _ _ _ (cover6 _ _)

end Triples

theorem acc6_zero (c : Dev nD) (t : Fin cfg6.N) (h0 : t.val = 0) :
    acc6 V c t.val t.isLt = step6 (iblk6 V c 0 t) (iblk6 V c 1 t) zero6 := by
  obtain ⟨n, hn⟩ := t
  cases n with
  | zero => rfl
  | succ n => exact absurd h0 (Nat.succ_ne_zero n)

theorem acc6_pos (c : Dev nD) (t : Fin cfg6.N) (h0 : ¬t.val = 0) :
    acc6 V c t.val t.isLt
      = step6 (iblk6 V c 0 t) (iblk6 V c 1 t) (acc6 V c (t.val - 1) (Nat.lt_of_le_of_lt (Nat.sub_le _ _) t.isLt)) := by
  obtain ⟨n, hn⟩ := t
  cases n with
  | zero => exact absurd rfl h0
  | succ n => rfl

abbrev scM6 : Memref sig .tc .vmem S64x64 .f32 := Memref.whole cc6_scratch0
abbrev rest6 (c : Dev nD) : sProp 𝕄 :=
  Pipeline.scopedRestBut (Ix := Unit) (Name := ℕ) (U := UR sig nD τ) (Lvl := ℕ) (Val := Elt F) spec6 c [cc6_scratch0]

theorem PhiS6_zero (c : Dev nD) (n : ℕ) (h : n ≤ cfg6.N) (hz : n = 0) : PhiS6 V c n h = Pipeline.ΦA spec6 c := by
  subst hz; rfl

theorem PhiS6_succ (c : Dev nD) (n : ℕ) (hn : n < cfg6.N) :
    PhiS6 V c (n + 1) hn
      = iprop(owns (c : Thread nD τ) scM6 fullShare (acc6 V c n hn) ∗ rest6 (F := F) c ∗ (∃ r, prngReg c r)) := rfl

theorem PhiS6_pos (c : Dev nD) (n : ℕ) (h : n ≤ cfg6.N) (hz : ¬n = 0) :
    PhiS6 V c n h
      = iprop(owns (c : Thread nD τ) scM6 fullShare (acc6 V c (n - 1) (by omega)) ∗ rest6 (F := F) c ∗ (∃ r, prngReg c r)) := by
  cases n with
  | zero => exact absurd rfl hz
  | succ n => rfl

theorem PhiA6_eq (c : Dev nD) :
    (Pipeline.ΦA spec6 c : sProp 𝕄)
      = iprop(((∃ d, owns (c : Thread nD τ) scM6 fullShare d) ∗ rest6 (F := F) c) ∗ (∃ r, prngReg c r)) := by
  unfold Pipeline.ΦA; rw [scopedRest6_split]; simp only [scM6, rest6, owns_whole]; try rfl

-- A point is the first, the last or neither; that case's triple applies with the accumulator as the invariant holds it.
set_option maxHeartbeats 4000000 in
theorem body_obligation6 (c : Dev nD) : BodyObligation (dat6 (F := F) V c) (defs₀ (F := F)) Variants.none () Set.univ := fun t => by
  rw [bigSep_W6, bigSep_W6]
  show _ ⊢ wp _ _ _ (bodyAt6 t) _
  simp only [before6_0, before6_1]
  rw [show (dat6 V c).owesAt () t.succ = (dat6 V c).owesAt () t.castSucc from rfl]
  rw [show (dat6 V c).Φ t.succ = PhiS6 V c (t.val + 1) t.isLt from rfl, PhiS6_succ]
  rw [show (dat6 V c).Φ t.castSucc = PhiS6 V c t.val (Nat.le_of_lt t.isLt) from rfl]
  rw [after6_0, after6_1]
  have hN : t.val < 10 := lt_of_lt_of_eq t.isLt (show cfg6.N = 10 from N_6)
  by_cases h0 : t.val = 0
  · have h9 : ¬t.val = 9 := by omega
    simp only [idleAt6_2 t h9, noFlush6_2 t h9]
    rw [acc6_zero V c t h0, PhiS6_zero V c _ _ h0, PhiA6_eq]
    iintro ⟨⟨⟨HS, HR⟩, Hg⟩, Ho, ⟨%d0, H0⟩, ⟨%d1, H1⟩, H2⟩
    iapply (sound_kernel6_A c Set.univ _ _ _ _ _ _ _ _ _ (iblk6 V c 0 t) (iblk6 V c 1 t) ((hcond6_0 t).mpr h0) (fun h => h9 ((hcond6_1 t).mp h)) _)
    iframe H0 H1 HS
    iintro ⟨H0, H1, HS⟩
    iframe
  · by_cases h9 : t.val = 9
    · simp only [liveAt6_2 t h9]
      rw [after6_2]
      rw [acc6_pos V c t h0, PhiS6_pos V c _ _ h0]
      iintro ⟨⟨HS, HR, Hg⟩, Ho, ⟨%d0, H0⟩, ⟨%d1, H1⟩, ⟨%d2, H2⟩⟩
      iapply (sound_kernel6_C c Set.univ _ _ _ _ _ _ _ _ _ (iblk6 V c 0 t) (iblk6 V c 1 t) (fun h => h0 ((hcond6_0 t).mp h)) ((hcond6_1 t).mpr h9) _ _)
      iframe H0 H1 HS
      isplitl [H2]; · iexists _; iexact H2
      iintro ⟨H0, H1, H2, HS⟩
      iframe
    · simp only [idleAt6_2 t h9, noFlush6_2 t h9]
      rw [acc6_pos V c t h0, PhiS6_pos V c _ _ h0]
      iintro ⟨⟨HS, HR, Hg⟩, Ho, ⟨%d0, H0⟩, ⟨%d1, H1⟩, H2⟩
      iapply (sound_kernel6_B c Set.univ _ _ _ _ _ _ _ _ _ (iblk6 V c 0 t) (iblk6 V c 1 t) (fun h => h0 ((hcond6_0 t).mp h)) (fun h => h9 ((hcond6_1 t).mp h)) _ _)
      iframe H0 H1 HS
      iintro ⟨H0, H1, HS⟩
      iframe

theorem hin6 (c : Dev nD) : Pipeline.ΦA spec6 c ⊢ (dat6 V c).Φ 0 := by
  rw [show (dat6 V c).Φ 0 = PhiS6 V c 0 (Nat.zero_le _) from rfl, PhiS6_zero V c 0 _ rfl]
  try exact Idealize.SL.BI.Entails.refl _

theorem hout6 (c : Dev nD) : (dat6 V c).Φ (Fin.last cfg6.N) ⊢ Pipeline.ΦA spec6 c := by
  rw [show (dat6 V c).Φ (Fin.last cfg6.N) = PhiS6 V c (Fin.last cfg6.N).val (Nat.le_of_lt_succ (Fin.last cfg6.N).isLt) from rfl,
    PhiS6_pos V c _ _ (by rw [Fin.val_last]; have : cfg6.N = 10 := N_6; omega), PhiA6_eq]
  iintro ⟨HS, HR, Hg⟩
  isplitl [HS HR]
  · isplitl [HS]; · iexists _; iexact HS
    iexact HR
  iexact Hg

theorem zero6_eq : (zero6 : Vec F S64x64 .f32) = k6_pay1 (F := F) := by
  unfold zero6
  exact View.canon_unit_zero (S := S64x64) zeros6 _ _
theorem step6_eq (x0 : Vec F S10000x64 .f32) (x1 : Vec F S10000x64 .bf16) (a : Vec F S64x64 .f32) : step6 x0 x1 a = k6_pay2 x0 x1 a := by
  unfold step6
  rw [View.canon_unit_zero (S := S64x64) zeros6]
  rw [View.ld_unit_zero (S := S10000x64) zeros6, View.ld_unit_zero (S := S10000x64) zeros6, View.ld_unit_zero (S := S64x64) zeros6]
theorem fin6_eq (a : Vec F S64x64 .f32) : fin6 a = a := by
  unfold fin6
  rw [View.canon_unit_zero (S := S64x64) zeros6, View.ld_unit_zero (S := S64x64) zeros6]

end Cert.KernelIdeal.Hand

end
-- ==== Proof.KiRun.lean ====
import proofs.«400334_j4698694221926_1_alg».proof.Proof.KiR0
import proofs.«400334_j4698694221926_1_alg».proof.Proof.KiR1
import proofs.«400334_j4698694221926_1_alg».proof.Proof.KiR2
import proofs.«400334_j4698694221926_1_alg».proof.Proof.KiR3
import proofs.«400334_j4698694221926_1_alg».proof.Proof.KiR4
import proofs.«400334_j4698694221926_1_alg».proof.Proof.KiR5
import proofs.«400334_j4698694221926_1_alg».proof.Proof.KiR6
import proofs.«400334_j4698694221926_1_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf Seg HostSeg RegionSeg)

variable {F : FTy → Type} [FloatOps F]

local notation "𝕄" => MT nD τ sig Unit (Elt F) ℕ (UR sig nD τ) ℕ

variable (m : (ℓ : Loc nD τ sig) → Buf (Elt F) ℓ)

abbrev tc (W : Dev nD → Valuation τ sig (Elt F)) : (c : Dev nD) → (b : Ref sig .tc) → Buf (Elt F) ((c : Thread nD τ).loc b) :=
  fun c b => W c b

-- Overwriting one buffer of a valuation leaves every other buffer as it was.
theorem upd_ne (W : Valuation τ sig (Elt F)) (r b : Ref sig .tc) (x) (h : b ≠ r) : Function.update W r x b = W b :=
  Function.update_of_ne (StableHlo.devRef_ne_of_ne h : (Proc.devRef .tc b : DevRef τ sig) ≠ Proc.devRef .tc r) ..

abbrev C5 (c : Dev nD) : Valuation τ sig (Elt F) := V5 m c

def o0 (c : Dev nD) : Buf (Elt F) ((c : Thread nD τ).loc main_v36) := (dat0 (tc (C5 m)) c).arrAt 2 cfg0.N
def C6 (c : Dev nD) : Valuation τ sig (Elt F) := Function.update (C5 m c) main_v36 (o0 m c)
theorem C6_self (c : Dev nD) : C6 m c main_v36 = o0 m c := Function.update_self ..
theorem C6_ne (c : Dev nD) (b : Ref sig .tc) (h : b ≠ main_v36) : C6 m c b = C5 m c b := upd_ne _ _ _ _ h
abbrev C7 (c : Dev nD) : Valuation τ sig (Elt F) := StableHlo.after hostOps1 (C6 m c)

def o1 (c : Dev nD) : Buf (Elt F) ((c : Thread nD τ).loc main_v50) := (dat1 (tc (C7 m)) c).arrAt 2 cfg1.N
def C8 (c : Dev nD) : Valuation τ sig (Elt F) := Function.update (C7 m c) main_v50 (o1 m c)
theorem C8_self (c : Dev nD) : C8 m c main_v50 = o1 m c := Function.update_self ..
theorem C8_ne (c : Dev nD) (b : Ref sig .tc) (h : b ≠ main_v50) : C8 m c b = C7 m c b := upd_ne _ _ _ _ h

def o2 (c : Dev nD) : Buf (Elt F) ((c : Thread nD τ).loc main_v51) := (dat2 (tc (C8 m)) c).arrAt 2 cfg2.N
def C9 (c : Dev nD) : Valuation τ sig (Elt F) := Function.update (C8 m c) main_v51 (o2 m c)
theorem C9_self (c : Dev nD) : C9 m c main_v51 = o2 m c := Function.update_self ..
theorem C9_ne (c : Dev nD) (b : Ref sig .tc) (h : b ≠ main_v51) : C9 m c b = C8 m c b := upd_ne _ _ _ _ h
abbrev C10 (c : Dev nD) : Valuation τ sig (Elt F) := StableHlo.after hostOps3 (C9 m c)

def o3 (c : Dev nD) : Buf (Elt F) ((c : Thread nD τ).loc main_v65) := (dat3 (tc (C10 m)) c).arrAt 2 cfg3.N
def C11 (c : Dev nD) : Valuation τ sig (Elt F) := Function.update (C10 m c) main_v65 (o3 m c)
theorem C11_self (c : Dev nD) : C11 m c main_v65 = o3 m c := Function.update_self ..
theorem C11_ne (c : Dev nD) (b : Ref sig .tc) (h : b ≠ main_v65) : C11 m c b = C10 m c b := upd_ne _ _ _ _ h

def o4 (c : Dev nD) : Buf (Elt F) ((c : Thread nD τ).loc main_v66) := (dat4 (tc (C11 m)) c).arrAt 2 cfg4.N
def C12 (c : Dev nD) : Valuation τ sig (Elt F) := Function.update (C11 m c) main_v66 (o4 m c)
theorem C12_self (c : Dev nD) : C12 m c main_v66 = o4 m c := Function.update_self ..
theorem C12_ne (c : Dev nD) (b : Ref sig .tc) (h : b ≠ main_v66) : C12 m c b = C11 m c b := upd_ne _ _ _ _ h
abbrev C13 (c : Dev nD) : Valuation τ sig (Elt F) := StableHlo.after hostOps5 (C12 m c)

def o5 (c : Dev nD) : Buf (Elt F) ((c : Thread nD τ).loc main_v80) := (dat5 (tc (C13 m)) c).arrAt 2 cfg5.N
def C14 (c : Dev nD) : Valuation τ sig (Elt F) := Function.update (C13 m c) main_v80 (o5 m c)
theorem C14_self (c : Dev nD) : C14 m c main_v80 = o5 m c := Function.update_self ..
theorem C14_ne (c : Dev nD) (b : Ref sig .tc) (h : b ≠ main_v80) : C14 m c b = C13 m c b := upd_ne _ _ _ _ h
abbrev C15 (c : Dev nD) : Valuation τ sig (Elt F) := StableHlo.after hostOps6 (C14 m c)

def o6 (c : Dev nD) : Buf (Elt F) ((c : Thread nD τ).loc main_v88) := (dat6 (tc (C15 m)) c).arrAt 2 cfg6.N
def C16 (c : Dev nD) : Valuation τ sig (Elt F) := Function.update (C15 m c) main_v88 (o6 m c)
theorem C16_self (c : Dev nD) : C16 m c main_v88 = o6 m c := Function.update_self ..
theorem C16_ne (c : Dev nD) (b : Ref sig .tc) (h : b ≠ main_v88) : C16 m c b = C15 m c b := upd_ne _ _ _ _ h
abbrev C17 (c : Dev nD) : Valuation τ sig (Elt F) := StableHlo.after hostOps7 (C16 m c)

-- What each region leaves, read off the chain of contents between the items.
def outs : Outs (F := F) := fun J r c => match J with
  | 6 => C6 m c r | 8 => C8 m c r | 9 => C9 m c r | 11 => C11 m c r | 12 => C12 m c r | 14 => C14 m c r | 16 => C16 m c r
  | _ => C5 m c r

theorem V6_eq (c : Dev nD) : V6 m (outs m) c = C6 m c := by
  show Function.update (V5 m c) main_v36 (C6 m c main_v36) = C6 m c
  rw [C6_self]; rfl
theorem V7_eq (c : Dev nD) : V7 m (outs m) c = C7 m c := by
  show StableHlo.after hostOps1 (V6 m (outs m) c) = _; rw [V6_eq]
theorem V8_eq (c : Dev nD) : V8 m (outs m) c = C8 m c := by
  show Function.update (V7 m (outs m) c) main_v50 (C8 m c main_v50) = C8 m c
  rw [C8_self, V7_eq]; rfl
theorem V9_eq (c : Dev nD) : V9 m (outs m) c = C9 m c := by
  show Function.update (V8 m (outs m) c) main_v51 (C9 m c main_v51) = C9 m c
  rw [C9_self, V8_eq]; rfl
theorem V10_eq (c : Dev nD) : V10 m (outs m) c = C10 m c := by
  show StableHlo.after hostOps3 (V9 m (outs m) c) = _; rw [V9_eq]
theorem V11_eq (c : Dev nD) : V11 m (outs m) c = C11 m c := by
  show Function.update (V10 m (outs m) c) main_v65 (C11 m c main_v65) = C11 m c
  rw [C11_self, V10_eq]; rfl
theorem V12_eq (c : Dev nD) : V12 m (outs m) c = C12 m c := by
  show Function.update (V11 m (outs m) c) main_v66 (C12 m c main_v66) = C12 m c
  rw [C12_self, V11_eq]; rfl
theorem V13_eq (c : Dev nD) : V13 m (outs m) c = C13 m c := by
  show StableHlo.after hostOps5 (V12 m (outs m) c) = _; rw [V12_eq]
theorem V14_eq (c : Dev nD) : V14 m (outs m) c = C14 m c := by
  show Function.update (V13 m (outs m) c) main_v80 (C14 m c main_v80) = C14 m c
  rw [C14_self, V13_eq]; rfl
theorem V15_eq (c : Dev nD) : V15 m (outs m) c = C15 m c := by
  show StableHlo.after hostOps6 (V14 m (outs m) c) = _; rw [V14_eq]
theorem V16_eq (c : Dev nD) : V16 m (outs m) c = C16 m c := by
  show Function.update (V15 m (outs m) c) main_v88 (C16 m c main_v88) = C16 m c
  rw [C16_self, V15_eq]; rfl
theorem V17_eq (c : Dev nD) : V17 m (outs m) c = C17 m c := by
  show StableHlo.after hostOps7 (V16 m (outs m) c) = _; rw [V16_eq]

def pdats : (p : Fin 7) → (c : Dev nD) → Dat τ (Elt F) Unit ℕ (UR sig nD τ) ℕ (cfgs p) c
  | ⟨0, _⟩ => fun c => dat0 (tc (C5 m)) c
  | ⟨1, _⟩ => fun c => dat1 (tc (C7 m)) c
  | ⟨2, _⟩ => fun c => dat2 (tc (C8 m)) c
  | ⟨3, _⟩ => fun c => dat3 (tc (C10 m)) c
  | ⟨4, _⟩ => fun c => dat4 (tc (C11 m)) c
  | ⟨5, _⟩ => fun c => dat5 (tc (C13 m)) c
  | ⟨6, _⟩ => fun c => dat6 (tc (C15 m)) c
abbrev 𝒱₀ : Variants := Variants.none
abbrev L : GSem nD τ sig → Finset Unit := fun _ => ∅
abbrev lv : GSem nD τ sig → Unit → ℕ := fun _ _ => 0
abbrev Rest (c : Dev nD) : sProp 𝕄 := iprop((∃ r, prngReg c r) ∗ ∃ W, owes (c : Thread nD τ) (0 : CellTallies nD τ sig Unit) W)

theorem toPhiA (p : Fin 7) (c : Dev nD) (P : sProp 𝕄) :
    iprop((∃ r, prngReg c r) ∗ P ∗ Pipeline.scopedRest (Ix := Unit) (Name := ℕ) (U := UR sig nD τ) (Lvl := ℕ) (Val := Elt F) (cfgs p).spec c) ⊢ Pipeline.ΦA (cfgs p).spec c := by
  unfold Pipeline.ΦA
  iintro ⟨Hp, -, Hr⟩
  isplitl [Hr]; · iexact Hr
  iexact Hp
theorem ofPhiA (p : Fin 7) (c : Dev nD) :
    (Pipeline.ΦA (cfgs p).spec c : sProp 𝕄) ⊢ iprop((∃ r, prngReg c r) ∗ emp ∗ Pipeline.scopedRest (Ix := Unit) (Name := ℕ) (U := UR sig nD τ) (Lvl := ℕ) (Val := Elt F) (cfgs p).spec c) := by
  unfold Pipeline.ΦA
  iintro ⟨Hr, Hp⟩
  isplitl [Hp]; · iexact Hp
  isplitr; · iempintro
  iexact Hr

-- A region whose windows are all inputs but one changes that window's array only: the windows' arrays are distinct.
set_option backward.isDefEq.respectTransparency.types false in
def regOf (p : Fin 7) (lf : Pipeline.LaunchFacts (nD := nD) (τ := τ) cfgs p) (Cin Cout : Dev nD → Valuation τ sig (Elt F))
    (hbody : ∀ c, Pipeline.BodyObligationLoose (pdats m p c) defs₀ 𝒱₀ () Set.univ)
    (howed : ∀ c t, (pdats m p c).owed t = 0) (hrec : ∀ c x, x ∈ (pdats m p c).recorded 0) (hq : ∀ c w, (pdats m p c).q w = fullShare)
    (hA : ∀ c w, (pdats m p c).A w = tc Cin c (Pipeline.arrRef (cfgs p).spec w))
    (hin : ∀ c, Pipeline.ΦA (cfgs p).spec c ⊢ (pdats m p c).Φ 0)
    (hout : ∀ c, (pdats m p c).Φ (Fin.last _) ⊢ Pipeline.ΦA (cfgs p).spec c)
    (wo : Fin (cfgs p).W) (hio : ∀ w, w ≠ wo → ((cfgs p).win w).isOut = false)
    (hC : ∀ c, Cout c = Function.update (Cin c) (Pipeline.arrRef (cfgs p).spec wo) ((pdats m p c).arrAt wo (cfgs p).N)) :
    RegionSeg (pcfgs (F := F)) adm (pdats m) () defs₀ 𝒱₀ L lv p where
  win := lf.win.to₀
  block_pos := lf.block_pos
  stage_whole := lf.stage_whole
  K := PEmpty
  osem k := k.elim
  ho := Pipeline.OwnSemFacts.none _
  hbody := hbody
  hwaits := Pipeline.hwaits_of_owed_zero _ _ _ _ L lv p howed
  pre c := iprop(StableHlo.held (c : Thread nD τ) (Pipeline.ucRefs τ sig) (Cin c) ∗ Rest c)
  post c := iprop(StableHlo.held (c : Thread nD τ) (Pipeline.ucRefs τ sig) (Cout c) ∗ Rest c)
  X c := iprop(∃ r, prngReg c r)
  Y c := iprop(∃ r, prngReg c r)
  Z c := Pipeline.unscopedRest (Ix := Unit) (Name := ℕ) (U := UR sig nD τ) (Lvl := ℕ) (cfgs p).spec c (tc Cin c)
  hentry c := by
    rw [Pipeline.ownSems0_none]
    have hsplit := Pipeline.arrays_of_unscopedBufs (p := p) (pcfgs (F := F)) adm (pdats m) lf.win lf.arr_whole c
      ((pdats m p c).share_full (hq c)) (tc Cin c) (hA c)
    rw [Pipeline.unscopedBufs_held] at hsplit
    iintro ⟨⟨Hub, Hp, HO⟩, -, -⟩
    ihave H := hsplit $$ Hub
    icases H with ⟨Ha, Hrest⟩
    imodintro
    iframe Ha Hp Hrest
    isplitr; · unfold Pipeline.prefHeld; rw [show (Finset.univ : Finset (Fin 0)) = ∅ from rfl, BI.bigSep_empty]; iempintro
    unfold Pipeline.Dat.owesAt Pipeline.owesWithin; rw [howed c 0]
    icases HO with ⟨%W, HO⟩; iexists W; isplitr; · ipureintro; exact fun x _ => Or.inl (hrec c x)
    iexact HO
  hin c := (toPhiA p c _).trans (hin c)
  hout c := by rw [Pipeline.ownSems0_none]; exact (hout c).trans (ofPhiA p c)
  hexit c := by
    have hjoin := Pipeline.unscopedBufs_of_arrays (p := p) (pcfgs (F := F)) adm (Ix := Unit) (Name := ℕ) (U := UR sig nD τ) (Lvl := ℕ)
      lf.win lf.arr_whole c (pdats m) ((pdats m p c).share_full (hq c))
      (tc Cin c) (tc Cout c) ((pdats m p c).arrAt · (cfgs p).N)
      (fun w => by
        show _ = Cout c _
        rw [hC c]
        by_cases h : w = wo
        · subst h; exact (Function.update_self (Proc.devRef .tc (Pipeline.arrRef (cfgs p).spec w) : DevRef τ sig) _ (Cin c)).symm
        · exact (((pdats m p c).arrAt_in w (hio w h) _).trans (hA c w)).trans (upd_ne _ _ _ _ fun e => h (lf.win.arr_inj e)).symm)
      (fun b hb => by
        show Cout c _ = _
        rw [hC c]
        exact upd_ne _ _ _ _ fun e => hb (Finset.mem_image.mpr ⟨wo, Finset.mem_univ _, e.symm⟩))
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin; rw [howed c _]
    icases HO with ⟨%W, -, HO⟩; iexists W; iexact HO

def reg0 : RegionSeg (pcfgs (F := F)) adm (pdats m) () defs₀ 𝒱₀ L lv 0 :=
  regOf m 0 launch0 (C5 m) (C6 m) (fun c => (body_obligation0 (tc (C5 m)) c).loose) (fun _ _ => rfl) (fun _ _ => trivial) (fun _ _ => rfl) (fun _ _ => rfl)
    (fun _ => .rfl) (fun _ => .rfl) 2 (by decide) (fun _ => rfl)
def reg1 : RegionSeg (pcfgs (F := F)) adm (pdats m) () defs₀ 𝒱₀ L lv 1 :=
  regOf m 1 launch1 (C7 m) (C8 m) (fun c => (body_obligation1 (tc (C7 m)) c).loose) (fun _ _ => rfl) (fun _ _ => trivial) (fun _ _ => rfl) (fun _ _ => rfl)
    (fun _ => .rfl) (fun _ => .rfl) 2 (by decide) (fun _ => rfl)
def reg2 : RegionSeg (pcfgs (F := F)) adm (pdats m) () defs₀ 𝒱₀ L lv 2 :=
  regOf m 2 launch2 (C8 m) (C9 m) (fun c => (body_obligation2 (tc (C8 m)) c).loose) (fun _ _ => rfl) (fun _ _ => trivial) (fun _ _ => rfl) (fun _ _ => rfl)
    (fun _ => .rfl) (fun _ => .rfl) 2 (by decide) (fun _ => rfl)
def reg3 : RegionSeg (pcfgs (F := F)) adm (pdats m) () defs₀ 𝒱₀ L lv 3 :=
  regOf m 3 launch3 (C10 m) (C11 m) (fun c => (body_obligation3 (tc (C10 m)) c).loose) (fun _ _ => rfl) (fun _ _ => trivial) (fun _ _ => rfl) (fun _ _ => rfl)
    (fun _ => .rfl) (fun _ => .rfl) 2 (by decide) (fun _ => rfl)
def reg4 : RegionSeg (pcfgs (F := F)) adm (pdats m) () defs₀ 𝒱₀ L lv 4 :=
  regOf m 4 launch4 (C11 m) (C12 m) (fun c => (body_obligation4 (tc (C11 m)) c).loose) (fun _ _ => rfl) (fun _ _ => trivial) (fun _ _ => rfl) (fun _ _ => rfl)
    (fun _ => .rfl) (fun _ => .rfl) 2 (by decide) (fun _ => rfl)
def reg5 : RegionSeg (pcfgs (F := F)) adm (pdats m) () defs₀ 𝒱₀ L lv 5 :=
  regOf m 5 launch5 (C13 m) (C14 m) (fun c => (body_obligation5 (tc (C13 m)) c).loose) (fun _ _ => rfl) (fun _ _ => trivial) (fun _ _ => rfl) (fun _ _ => rfl)
    (fun _ => .rfl) (fun _ => .rfl) 2 (by decide) (fun _ => rfl)
def reg6 : RegionSeg (pcfgs (F := F)) adm (pdats m) () defs₀ 𝒱₀ L lv 6 :=
  regOf m 6 launch6 (C15 m) (C16 m) (fun c => (body_obligation6 (tc (C15 m)) c).loose) (fun _ _ => rfl) (fun _ _ => trivial) (fun _ _ => rfl) (fun _ _ => rfl)
    (hin6 (tc (C15 m))) (hout6 (tc (C15 m))) 2 (by decide) (fun _ => rfl)

abbrev Tlast (c : Dev nD) : sProp 𝕄 := iprop(StableHlo.held (c : Thread nD τ) (Pipeline.ucRefs τ sig) (C17 m c) ∗ ∃ r, prngReg c r)

-- Equal contents give the same thread state.
theorem held_congr (c : Dev nD) {W W' : Valuation τ sig (Elt F)} (h : W = W') :
    iprop(StableHlo.held (c : Thread nD τ) (Pipeline.ucRefs τ sig) W ∗ Rest c) ⊢ iprop(StableHlo.held (c : Thread nD τ) (Pipeline.ucRefs τ sig) W' ∗ Rest (F := F) c) := h ▸ .rfl
theorem hlast (c : Dev nD) : iprop(StableHlo.held (c : Thread nD τ) (Pipeline.ucRefs τ sig) (V17 m (outs m) c) ∗ Rest c) ⊢ iprop(Tlast m c ∗ ∃ W, owes (c : Thread nD τ) (0 : CellTallies nD τ sig Unit) W) := by
  rw [V17_eq]
  iintro ⟨Hh, Hp, HO⟩
  isplitl [Hh Hp]
  · isplitl [Hh]; · iexact Hh
    iexact Hp
  iexact HO

theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

-- Every weakly fair execution ends with every unscoped buffer at the last boundary's contents.
set_option backward.isDefEq.respectTransparency.types false in
theorem run_all (ρ : Dev nD → PrngReg) : θ_run defs (onTc (τ := τ) (main (F := F))) ⟨m, fun _ => 0, ρ⟩ (fun r => ∀ c : Dev nD,
      ∀ b ∈ Pipeline.ucRefs τ sig, r.2.mem (((c : Thread nD τ)).1, b) = C17 m c b) := by
  refine Pipeline.θ_run_regions_kit_dev (pcfgs (F := F)) adm (pdats m) () cellOf_inj emb₁ defs₀ 𝒱₀ L lv m ρ main
    (segs m (outs m) 𝒱₀ L lv (fun _ => Rest) () (pdats m) (reg0 m) (reg1 m) (reg2 m) (reg3 m) (reg4 m) (reg5 m) (reg6 m))
    (fun c Q => by
      rewrite [main_chain c, Seg.run_eq_chain,
        show (segs m (outs m) 𝒱₀ L lv (fun _ => Rest) () (pdats m) (reg0 m) (reg1 m) (reg2 m) (reg3 m) (reg4 m) (reg5 m) (reg6 m) c).map Seg.prog = [
          StableHlo.seq hostOps0,
          StableHlo.seq hostOps0_1,
          StableHlo.seq hostOps0_2,
          StableHlo.seq hostOps0_3,
          StableHlo.seq hostOps0_4,
          Prog.lift (.customCall (Pipeline.entry 0) ()),
          StableHlo.seq hostOps1,
          Prog.lift (.customCall (Pipeline.entry 1) ()),
          Prog.lift (.customCall (Pipeline.entry 2) ()),
          StableHlo.seq hostOps3,
          Prog.lift (.customCall (Pipeline.entry 3) ()),
          Prog.lift (.customCall (Pipeline.entry 4) ()),
          StableHlo.seq hostOps5,
          Prog.lift (.customCall (Pipeline.entry 5) ()),
          StableHlo.seq hostOps6,
          Prog.lift (.customCall (Pipeline.entry 6) ()),
          StableHlo.seq hostOps7 ] from rfl]
      exact .rfl)
    (fun c => by simp only [segs, Seg.pipes_host, Seg.pipes_region, Seg.pipes_nil]; decide) (O₀ := 0) (hL := fun _ _ => rfl)
    (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Rest c))
    (Tₙ := Tlast m)
    (hch := fun c => ⟨.rfl, .rfl, .rfl, .rfl, .rfl,
      .rfl, held_congr c (V6_eq m c).symm,
      held_congr c (V7_eq m c), .rfl,
      held_congr c (V9_eq m c).symm,
      held_congr c (V10_eq m c), .rfl,
      held_congr c (V12_eq m c).symm,
      held_congr c (V13_eq m c), held_congr c (V14_eq m c).symm,
      held_congr c (V15_eq m c), held_congr c (V16_eq m c).symm,
      hlast m c⟩)
    (hinit := by
      refine Pipeline.initEach L lv fun c => ?_
      rw [show unscopedBufs c (fun b => m ((c : Thread nD τ).loc b)) = StableHlo.held (c : Thread nD τ) (Pipeline.ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = C17 m c b)
    (hfin := fun c s' => by
      iintro ⟨⟨Hh, -⟩, HSI⟩
      unfold StableHlo.held
      imodintro
      iapply (pointsTo_read_all (Pipeline.ucRefs τ sig) (fun b => (((c : Thread nD τ)).1, b)) (C17 m c) s')
      isplitl [Hh] <;> iassumption)
    (hQ := fun _ h => h)

-- A buffer the last contents hold as launched ends as launched.
theorem kept (c : Dev nD) {mem : (ℓ : Loc nD τ sig) → Buf (Elt F) ℓ} (h : ∀ b ∈ Pipeline.ucRefs τ sig, mem (((c : Thread nD τ)).1, b) = C17 m c b)
    (r : Ref sig .tc) (hs : ¬ (Proc.devRef .tc r : DevRef τ sig).isScoped) (e : V17 m (outs m) c r = m ((c : Thread nD τ).loc r)) :
    mem ((c.tc : Thread nD τ).loc r) = m ((c.tc : Thread nD τ).loc r) :=
  (h _ (mem_uc r hs)).trans ((congrFun (V17_eq m c).symm _).trans e)

-- No host operation and no region writes an argument array, so the last contents hold them as launched.
theorem frame (ρ : Dev nD → PrngReg) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨kept m c (h c) main_arg0 (by decide) (V17_main_arg0 m (outs m) c),
     kept m c (h c) main_arg1 (by decide) (V17_main_arg1 m (outs m) c),
     kept m c (h c) main_arg2 (by decide) (V17_main_arg2 m (outs m) c),
     kept m c (h c) main_arg3 (by decide) (V17_main_arg3 m (outs m) c),
     kept m c (h c) main_arg4 (by decide) (V17_main_arg4 m (outs m) c),
     kept m c (h c) main_arg5 (by decide) (V17_main_arg5 m (outs m) c),
     kept m c (h c) main_arg6 (by decide) (V17_main_arg6 m (outs m) c),
     kept m c (h c) main_arg7 (by decide) (V17_main_arg7 m (outs m) c),
     kept m c (h c) main_arg8 (by decide) (V17_main_arg8 m (outs m) c),
     kept m c (h c) main_arg9 (by decide) (V17_main_arg9 m (outs m) c)⟩)
    (run_all m ρ)

end Cert.KernelIdeal.Hand

end
-- ==== Proof.KiHost.lean ====
import proofs.«400334_j4698694221926_1_alg».proof.Proof.KiRun
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable {F : FTy → Type} [FloatOps F]
variable (m : (ℓ : Loc nD τ sig) → Buf (Elt F) ℓ)

def aggK128 (xw : (⟨S100000x128, .f32⟩ : BufTy).Contents (Elt F)) (v3 v7 : (⟨S700000, .i32⟩ : BufTy).Contents (Elt F)) (v35 : (⟨S700000, .f32⟩ : BufTy).Contents (Elt F)) : (⟨S100000x128, .f32⟩ : BufTy).Contents (Elt F) :=
  Host.scatterAdd scatter_S100000x128_S700000x1_S700000x128_1_0_0_1
    (broadcastInDim S100000x128 ![] bcast_S_S100000x128 (constant S_ .f32 0x00000000#32))
    (broadcastInDim S700000x1 ![0] bcast_S700000_S700000x1_0 v7)
    (mulf (Host.gather gather_S100000x128_S700000x1_S700000x128_1_0_n_n_0_1_1128 xw
        (broadcastInDim S700000x1 ![0] bcast_S700000_S700000x1_0
          (select (cmpi .slt v3 (broadcastInDim S700000 ![] bcast_S_S700000 (constantI S_ 32 0#32)))
            (addi v3 (broadcastInDim S700000 ![] bcast_S_S700000 (constantI S_ 32 100000#32))) v3)))
      (broadcastInDim S700000x128 ![0, 1] bcast_S700000x1_S700000x128_0_1 (broadcastInDim S700000x1 ![0] bcast_S700000_S700000x1_0 v35)))

def aggK64 (xw : (⟨S100000x64, .f32⟩ : BufTy).Contents (Elt F)) (v3 v7 : (⟨S700000, .i32⟩ : BufTy).Contents (Elt F)) (v35 : (⟨S700000, .f32⟩ : BufTy).Contents (Elt F)) : (⟨S100000x64, .f32⟩ : BufTy).Contents (Elt F) :=
  Host.scatterAdd scatter_S100000x64_S700000x1_S700000x64_1_0_0_1
    (broadcastInDim S100000x64 ![] bcast_S_S100000x64 (constant S_ .f32 0x00000000#32))
    (broadcastInDim S700000x1 ![0] bcast_S700000_S700000x1_0 v7)
    (mulf (Host.gather gather_S100000x64_S700000x1_S700000x64_1_0_n_n_0_1_164 xw
        (broadcastInDim S700000x1 ![0] bcast_S700000_S700000x1_0
          (select (cmpi .slt v3 (broadcastInDim S700000 ![] bcast_S_S700000 (constantI S_ 32 0#32)))
            (addi v3 (broadcastInDim S700000 ![] bcast_S_S700000 (constantI S_ 32 100000#32))) v3)))
      (broadcastInDim S700000x64 ![0, 1] bcast_S700000x1_S700000x64_0_1 (broadcastInDim S700000x1 ![0] bcast_S700000_S700000x1_0 v35)))

def onehotK (batch : (⟨S100000, .i32⟩ : BufTy).Contents (Elt F)) : (⟨S100000x64, .bf16⟩ : BufTy).Contents (Elt F) :=
  uitofp .bf16 (cmpi .eq
    (broadcastInDim S100000x64 ![0, 1] bcast_S100000x1_S100000x64_0_1 (broadcastInDim S100000x1 ![0] bcast_S100000_S100000x1_0 batch))
    (broadcastInDim S100000x64 ![0, 1] bcast_S1x64_S100000x64_0_1 (broadcastInDim S1x64 ![1] bcast_S64_S1x64_1 (iotaInDim S64 32 0))))

def meanK (sums : (⟨S64x64, .f32⟩ : BufTy).Contents (Elt F)) (oh : (⟨S100000x64, .bf16⟩ : BufTy).Contents (Elt F)) : (⟨S64x64, .f32⟩ : BufTy).Contents (Elt F) :=
  Host.divf sums
    (broadcastInDim S64x64 ![0, 1] bcast_S64x1_S64x64_0_1 (broadcastInDim S64x1 ![0] bcast_S64_S64x1_0
      (maximumf (Host.reduceAdd (extf .f32 oh bitsLt_bf16_f32) (constant S_ .f32 0x00000000#32) reducesTo_S100000x64_S64_d0 h_S_)
        (broadcastInDim S64 ![] bcast_S_S64 (constant S_ .f32 0x3F800000#32)))))

set_option maxHeartbeats 8000000 in
theorem h49 (c : Dev nD) : C7 m c main_v49 = aggK128 (C6 m c main_v36) (C6 m c main_v3) (C6 m c main_v7) (C6 m c main_v35) := by
  show StableHlo.after hostOps1 (C6 m c) (Proc.devRef .tc main_v49) = _
  after_results; rfl
set_option maxHeartbeats 8000000 in
theorem h64 (c : Dev nD) : C10 m c main_v64 = aggK128 (C9 m c main_v51) (C9 m c main_v3) (C9 m c main_v7) (C9 m c main_v35) := by
  show StableHlo.after hostOps3 (C9 m c) (Proc.devRef .tc main_v64) = _
  after_results; rfl
set_option maxHeartbeats 8000000 in
theorem h79 (c : Dev nD) : C13 m c main_v79 = aggK64 (C12 m c main_v66) (C12 m c main_v3) (C12 m c main_v7) (C12 m c main_v35) := by
  show StableHlo.after hostOps5 (C12 m c) (Proc.devRef .tc main_v79) = _
  after_results; rfl
set_option maxHeartbeats 8000000 in
theorem h87 (c : Dev nD) : C15 m c main_v87 = onehotK (C14 m c main_arg2) := by
  show StableHlo.after hostOps6 (C14 m c) (Proc.devRef .tc main_v87) = _
  after_results; rfl
set_option maxHeartbeats 8000000 in
theorem h95 (c : Dev nD) : C17 m c main_v95 = meanK (C16 m c main_v88) (C16 m c main_v87) := by
  show StableHlo.after hostOps7 (C16 m c) (Proc.devRef .tc main_v95) = _
  after_results; rfl

theorem keep7 (c : Dev nD) (r : Ref sig .tc) (h : r ∉ hostOps1_W) : C7 m c r = C6 m c r :=
  StableHlo.after_of_writes_sub hostOps1 _ hostOps1_writes h
theorem keep10 (c : Dev nD) (r : Ref sig .tc) (h : r ∉ hostOps3_W) : C10 m c r = C9 m c r :=
  StableHlo.after_of_writes_sub hostOps3 _ hostOps3_writes h
theorem keep13 (c : Dev nD) (r : Ref sig .tc) (h : r ∉ hostOps5_W) : C13 m c r = C12 m c r :=
  StableHlo.after_of_writes_sub hostOps5 _ hostOps5_writes h
theorem keep15 (c : Dev nD) (r : Ref sig .tc) (h : r ∉ hostOps6_W) : C15 m c r = C14 m c r :=
  StableHlo.after_of_writes_sub hostOps6 _ hostOps6_writes h

end Cert.KernelIdeal.Hand

end
-- ==== Proof.KiOut.lean ====
import proofs.«400334_j4698694221926_1_alg».proof.Proof.KiHost
import proofs.«400334_j4698694221926_1_alg».proof.Proof.Gen.ReferenceIdeal
import Idealize.ShloMosaic.PureOps.Ideal

noncomputable section

namespace Cert.KernelIdeal.Hand

open Cert.KernelIdeal Idealize.ShloMosaic Idealize.ShloMosaic.TcCoe

def lin128K (x : (⟨S100000x128, .f32⟩ : BufTy).Contents (Elt Ideal)) (W : (⟨S128x128, .f32⟩ : BufTy).Contents (Elt Ideal)) : (⟨S100000x128, .f32⟩ : BufTy).Contents (Elt Ideal) :=
  Host.dotGeneral (F := Ideal) (φ₁ := .f32) (φ₂ := .f32) Cert.ReferenceIdeal.dot_S100000x128_S128x128_S100000x128_1_0_0_1_n_n none x W
def lin64K (x : (⟨S100000x128, .f32⟩ : BufTy).Contents (Elt Ideal)) (W : (⟨S128x64, .f32⟩ : BufTy).Contents (Elt Ideal)) : (⟨S100000x64, .f32⟩ : BufTy).Contents (Elt Ideal) :=
  Host.dotGeneral (F := Ideal) (φ₁ := .f32) (φ₂ := .f32) Cert.ReferenceIdeal.dot_S100000x128_S128x64_S100000x64_1_0_0_1_n_n none x W

def act128K (a : (⟨S100000x128, .f32⟩ : BufTy).Contents (Elt Ideal)) (b : (⟨S128, .f32⟩ : BufTy).Contents (Elt Ideal)) : (⟨S100000x128, .f32⟩ : BufTy).Contents (Elt Ideal) :=
  maximumf (F := Ideal) (φ := .f32)
    (addf (F := Ideal) (φ := .f32) a (broadcastInDim Cert.ReferenceIdeal.S100000x128 ![0, 1] Cert.ReferenceIdeal.Facts₀.bcast_S1x128_S100000x128_0_1 (broadcastInDim Cert.ReferenceIdeal.S1x128 ![1] Cert.ReferenceIdeal.Facts₀.bcast_S128_S1x128_1 b)))
    (broadcastInDim Cert.ReferenceIdeal.S100000x128 ![] Cert.ReferenceIdeal.Facts₀.bcast_S_S100000x128 (constant (F := Ideal) Cert.ReferenceIdeal.S_ .f32 0x00000000#32))

def bias64K (a : (⟨S100000x64, .f32⟩ : BufTy).Contents (Elt Ideal)) (b : (⟨S64, .f32⟩ : BufTy).Contents (Elt Ideal)) : (⟨S100000x64, .f32⟩ : BufTy).Contents (Elt Ideal) :=
  addf (F := Ideal) (φ := .f32) a (broadcastInDim Cert.ReferenceIdeal.S100000x64 ![0, 1] Cert.ReferenceIdeal.Facts₀.bcast_S1x64_S100000x64_0_1 (broadcastInDim Cert.ReferenceIdeal.S1x64 ![1] Cert.ReferenceIdeal.Facts₀.bcast_S64_S1x64_1 b))

def sumsK (h : (⟨S100000x64, .f32⟩ : BufTy).Contents (Elt Ideal)) (batch : (⟨S100000, .i32⟩ : BufTy).Contents (Elt Ideal)) : (⟨S64x64, .f32⟩ : BufTy).Contents (Elt Ideal) :=
  Host.scatterAdd (F := Ideal) Cert.ReferenceIdeal.scatter_S64x64_S100000x1_S100000x64_1_0_0_1
    (broadcastInDim Cert.ReferenceIdeal.S64x64 ![] Cert.ReferenceIdeal.Facts₀.bcast_S_S64x64 (constant (F := Ideal) Cert.ReferenceIdeal.S_ .f32 0x00000000#32))
    (broadcastInDim Cert.ReferenceIdeal.S100000x1 ![0] Cert.ReferenceIdeal.Facts₀.bcast_S100000_S100000x1_0 batch) h

def countsK (batch : (⟨S100000, .i32⟩ : BufTy).Contents (Elt Ideal)) : (⟨S64, .f32⟩ : BufTy).Contents (Elt Ideal) :=
  Host.scatterAdd (F := Ideal) Cert.ReferenceIdeal.scatter_S64_S100000x1_S100000_n_0_0_1
    (broadcastInDim Cert.ReferenceIdeal.S64 ![] Cert.ReferenceIdeal.Facts₀.bcast_S_S64 (constant (F := Ideal) Cert.ReferenceIdeal.S_ .f32 0x00000000#32))
    (broadcastInDim Cert.ReferenceIdeal.S100000x1 ![0] Cert.ReferenceIdeal.Facts₀.bcast_S100000_S100000x1_0 batch)
    (broadcastInDim Cert.ReferenceIdeal.S100000 ![] Cert.ReferenceIdeal.Facts₀.bcast_S_S100000 (constant (F := Ideal) Cert.ReferenceIdeal.S_ .f32 0x3F800000#32))

def poolK (h : (⟨S100000x64, .f32⟩ : BufTy).Contents (Elt Ideal)) (batch : (⟨S100000, .i32⟩ : BufTy).Contents (Elt Ideal)) : (⟨S64x64, .f32⟩ : BufTy).Contents (Elt Ideal) :=
  Host.divf (F := Ideal) (φ := .f32) (sumsK h batch)
    (broadcastInDim S64x64 ![0, 1] Facts₀.bcast_S64x1_S64x64_0_1 (broadcastInDim S64x1 ![0] Facts₀.bcast_S64_S64x1_0
      (maximumf (F := Ideal) (φ := .f32) (countsK batch) (broadcastInDim S64 ![] Facts₀.bcast_S_S64 (constant (F := Ideal) S_ .f32 0x3F800000#32)))))

def kOut (x : (⟨S100000x128, .f32⟩ : BufTy).Contents (Elt Ideal)) (v3 v7 : (⟨S700000, .i32⟩ : BufTy).Contents (Elt Ideal)) (v35 : (⟨S700000, .f32⟩ : BufTy).Contents (Elt Ideal)) (batch : (⟨S100000, .i32⟩ : BufTy).Contents (Elt Ideal))
    (W1 : (⟨S128x128, .f32⟩ : BufTy).Contents (Elt Ideal)) (b1 : (⟨S128, .f32⟩ : BufTy).Contents (Elt Ideal)) (W2 : (⟨S128x128, .f32⟩ : BufTy).Contents (Elt Ideal)) (b2 : (⟨S128, .f32⟩ : BufTy).Contents (Elt Ideal))
    (W3 : (⟨S128x64, .f32⟩ : BufTy).Contents (Elt Ideal)) (b3 : (⟨S64, .f32⟩ : BufTy).Contents (Elt Ideal)) : (⟨S64x64, .f32⟩ : BufTy).Contents (Elt Ideal) :=
  poolK (bias64K (aggK64 (lin64K (act128K (aggK128 (lin128K (act128K (aggK128 (lin128K x W1) v3 v7 v35) b1) W2) v3 v7 v35) b2) W3) v3 v7 v35) b3) batch

end Cert.KernelIdeal.Hand

end
-- ==== Proof.LibClamp.lean ====
import Mathlib.Data.BitVec
import Mathlib.Order.Basic

namespace Cert.LibClamp

def clampTo {w : Nat} (N : Nat) (hN : 0 < N) (v : BitVec w) : Fin N := ⟨min v.toInt.toNat (N - 1), by omega⟩

end Cert.LibClamp
-- ==== Proof.LibGatherScatter.lean ====
import Idealize.ShloMosaic.PureOps.Ideal
import Idealize.ShloMosaic.PureOps.Ideal.Laws
import Idealize.ShloMosaic.Lib.ValueIdx
import Idealize.ShloMosaic.Lib.StableHlo.Predicate
import proofs.«400334_j4698694221926_1_alg».proof.Proof.LibClamp

open scoped BigOperators

namespace Cert.LibGatherScatter

open Idealize.ShloMosaic Idealize.ShloMosaic.ValueIdx Idealize.ShloMosaic.StableHlo.Predicate
open Cert.LibClamp

theorem resultIdx?_eq_some_iff {s si u : Shape} {w : Nat} (d : ScatterDims s si u) (j : u.Idx) (idx : IVec si w) (i : s.Idx) :
    d.resultIdx? j idx = some i ↔ ∀ a, d.start j idx a + (d.window j a : ℤ) = ((i a).val : ℤ) := by
  unfold ScatterDims.resultIdx?
  split
  · next h =>
    rw [Option.some.injEq]
    constructor
    · rintro rfl a
      have := h a
      show _ = (((d.start j idx a + (d.window j a : ℤ)).toNat : ℕ) : ℤ)
      omega
    · intro hi
      funext a
      apply Fin.ext
      have := hi a
      show (d.start j idx a + (d.window j a : ℤ)).toNat = (i a).val
      omega
  · next h =>
    constructor
    · intro hn; exact absurd hn (by simp)
    · intro hi
      exfalso
      apply h
      intro a
      have := hi a
      have := (i a).isLt
      omega

theorem scatter_rows_coords {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) :
    d.start (ix2 e j') idx 0 = (idx (ixP e)).toInt ∧ d.start (ix2 e j') idx 1 = 0
    ∧ d.window (ix2 e j') 0 = 0 ∧ d.window (ix2 e j') 1 = j'.val := by
  obtain ⟨uw, iw, sd, ivd, wf⟩ := d
  simp only at huw hiw hsd hivd
  subst huw hiw hsd hivd
  refine ⟨?_, rfl, rfl, rfl⟩
  unfold ScatterDims.start
  rw [dif_pos (List.mem_singleton.mpr rfl)]
  congr 2
  funext b
  match b with
  | ⟨0, _⟩ => rfl
  | ⟨1, _⟩ => rfl

theorem scatter_rows_resultIdx_iff {N C n w : Nat}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (idx : IVec ⟨2, ![n, 1]⟩ w) (e : Fin n) (j' : Fin C) (c : Fin N) (j : Fin C) :
    d.resultIdx? (ix2 e j') idx = some (ix2 c j) ↔ j' = j ∧ (idx (ixP e)).toInt = (c.val : ℤ) := by
  obtain ⟨hs0, hs1, hw0, hw1⟩ := scatter_rows_coords d huw hiw hsd hivd idx e j'
  rw [resultIdx?_eq_some_iff]
  constructor
  · intro h
    have h0 := h 0
    have h1 := h 1
    rw [hs0, hw0] at h0
    rw [hs1, hw1] at h1
    have h0' : (idx (ixP e)).toInt + ((0 : ℕ) : ℤ) = (c.val : ℤ) := h0
    have h1' : (0 : ℤ) + (j'.val : ℤ) = (j.val : ℤ) := h1
    exact ⟨Fin.ext (by omega), by omega⟩
  · rintro ⟨rfl, hv⟩ a
    match a with
    | ⟨0, _⟩ =>
      show d.start (ix2 e j') idx 0 + (d.window (ix2 e j') 0 : ℤ) = (c.val : ℤ)
      rw [hs0, hw0]; omega
    | ⟨1, _⟩ =>
      show d.start (ix2 e j') idx 1 + (d.window (ix2 e j') 1 : ℤ) = (j'.val : ℤ)
      rw [hs1, hw1]; omega

theorem scatterAdd_rows_apply {N C n w : Nat} {φ : FTy}
    (d : ScatterDims ⟨2, ![N, C]⟩ ⟨2, ![n, 1]⟩ ⟨2, ![n, C]⟩)
    (huw : d.updateWindowDims = [1]) (hiw : d.insertedWindowDims = [0])
    (hsd : d.scatterDimsToOperandDims = [0]) (hivd : d.indexVectorDim = 1)
    (x : FVec Ideal ⟨2, ![N, C]⟩ φ) (idx : IVec ⟨2, ![n, 1]⟩ w) (upd : FVec Ideal ⟨2, ![n, C]⟩ φ)
    (c : Fin N) (j : Fin C) :
    Host.scatterAdd (F := Ideal) d x idx upd (ix2 c j)
      = x (ix2 c j) + ∑ e ∈ Finset.univ.filter (fun e : Fin n => (idx (ixP e)).toInt = (c.val : ℤ)), upd (ix2 e j) := by
  have hmem : ∀ i : (⟨2, ![n, C]⟩ : Shape).Idx,
      d.resultIdx? i idx = some (ix2 c j) ↔ i 1 = j ∧ (idx (ixP (i 0))).toInt = (c.val : ℤ) := fun i => by
    conv_lhs => rw [eq_ix2 i]
    exact scatter_rows_resultIdx_iff d huw hiw hsd hivd idx (i 0) (i 1) c j
  unfold Host.scatterAdd
  rw [Ideal.hostScatterAdd_def]
  unfold Ideal.hostScatterAdd
  congr 1
  refine Finset.sum_bij' (fun i _ => i 0) (fun e _ => ix2 e j) ?_ ?_ ?_ ?_ ?_
  · intro i hi
    exact Finset.mem_filter.2 ⟨Finset.mem_univ _, ((hmem i).1 (Finset.mem_filter.1 hi).2).2⟩
  · intro e he
    exact Finset.mem_filter.2 ⟨Finset.mem_univ _, (hmem (ix2 e j)).2 ⟨rfl, (Finset.mem_filter.1 he).2⟩⟩
  · intro i hi
    have h1 : i 1 = j := ((hmem i).1 (Finset.mem_filter.1 hi).2).1
    rw [← h1]; exact (eq_ix2 i).symm
  · intro e _; rfl
  · intro i hi
    have h1 : i 1 = j := ((hmem i).1 (Finset.mem_filter.1 hi).2).1
    rw [← h1]; exact congrArg upd (eq_ix2 i)

theorem gather_rows_coords {N C n w : Nat}
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (idx : IVec ⟨2, ![n, 1]⟩ w) (e : Fin n) (j : Fin C) :
    (d.operandIdx (ix2 e j) idx 0).val = min (idx (ixP e)).toInt.toNat (N - 1)
    ∧ (d.operandIdx (ix2 e j) idx 1).val = j.val := by
  have hsl : d.sliceSizes 0 = 1 := d.slice_collapsed 0 (by rw [hcoll]; exact List.mem_singleton.mpr rfl)
  obtain ⟨od, cd, ob, sb, sm, ivd, ss, wf⟩ := d
  simp only at hod hcoll hob hsim hivd hsl
  subst hod hcoll hob hsim hivd
  refine ⟨?_, ?_⟩
  swap
  · show GatherDims.start _ (ix2 e j) idx 1 + GatherDims.batchCoord _ (ix2 e j) 1 + GatherDims.offCoord _ (ix2 e j) 1 = _
    rw [GatherDims.batchCoord_eq_zero _ _ _ List.not_mem_nil]
    have hst : GatherDims.start ⟨[1], [0], [], sb, [0], 1, ss, wf⟩ (ix2 e j) idx 1 = 0 := rfl
    have hof : GatherDims.offCoord ⟨[1], [0], [], sb, [0], 1, ss, wf⟩ (ix2 e j) 1 = j.val := rfl
    rw [hst, hof]
    omega
  show GatherDims.start _ (ix2 e j) idx 0 + GatherDims.batchCoord _ (ix2 e j) 0 + GatherDims.offCoord _ (ix2 e j) 0 = _
  rw [GatherDims.batchCoord_eq_zero _ _ _ List.not_mem_nil,
    GatherDims.offCoord_eq_zero _ _ _ (fun h => ((GatherDims.mem_sKept _ _).mp h).1 (List.mem_singleton.mpr rfl))]
  simp only [Nat.add_zero]
  unfold GatherDims.start
  rw [dif_pos (List.mem_singleton.mpr rfl)]
  show min _ (N - ss 0) = _
  rw [hsl]
  congr 3
  congr 1
  funext b
  match b with
  | ⟨0, _⟩ => rfl
  | ⟨1, _⟩ => rfl

theorem gather_rows_apply {α : Type} {N C n w : Nat} (hN : 0 < N)
    (d : GatherDims ⟨2, ![N, C]⟩ ⟨2, ![n, 1]⟩ ⟨2, ![n, C]⟩)
    (hod : d.offsetDims = [1]) (hcoll : d.collapsedSliceDims = [0]) (hob : d.operandBatchingDims = [])
    (hsim : d.startIndexMap = [0]) (hivd : d.indexVectorDim = 1)
    (x : (⟨2, ![N, C]⟩ : Shape).Idx → α) (idx : IVec ⟨2, ![n, 1]⟩ w) (e : Fin n) (j : Fin C) :
    Host.gather d x idx (ix2 e j) = x (ix2 (clampTo N hN (idx (ixP e))) j) := by
  obtain ⟨h0, h1⟩ := gather_rows_coords d hod hcoll hob hsim hivd idx e j
  unfold Host.gather
  congr 1
  funext a
  apply Fin.ext
  match a with
  | ⟨0, _⟩ => exact h0
  | ⟨1, _⟩ => exact h1

theorem scatter_vec_coords {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) :
    d.start (ix1 e) idx 0 = (idx (ixP e)).toInt ∧ d.window (ix1 e) 0 = 0 := by
  obtain ⟨uw, iw, sd, ivd, wf⟩ := d
  simp only at huw hiw hsd hivd
  subst huw hiw hsd hivd
  refine ⟨?_, rfl⟩
  unfold ScatterDims.start
  rw [dif_pos (List.mem_singleton.mpr rfl)]
  congr 2
  funext b
  match b with
  | ⟨0, _⟩ => rfl
  | ⟨1, _⟩ => rfl

theorem scatter_vec_resultIdx_iff {G n w : Nat}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (idx : IVec ⟨2, ![n, 1]⟩ w) (e : Fin n) (q : Fin G) :
    d.resultIdx? (ix1 e) idx = some (ix1 q) ↔ (idx (ixP e)).toInt = (q.val : ℤ) := by
  obtain ⟨hs0, hw0⟩ := scatter_vec_coords d huw hiw hsd hivd idx e
  rw [resultIdx?_eq_some_iff]
  constructor
  · intro h
    have h0 := h 0
    rw [hs0, hw0] at h0
    have h0' : (idx (ixP e)).toInt + ((0 : ℕ) : ℤ) = (q.val : ℤ) := h0
    omega
  · intro hv a
    match a with
    | ⟨0, _⟩ =>
      show d.start (ix1 e) idx 0 + (d.window (ix1 e) 0 : ℤ) = (q.val : ℤ)
      rw [hs0, hw0]; omega

theorem scatterAdd_vec_apply {G n w : Nat} {φ : FTy}
    (d : ScatterDims ⟨1, ![G]⟩ ⟨2, ![n, 1]⟩ ⟨1, ![n]⟩)
    (huw : d.updateWindowDims = []) (hiw : d.insertedWindowDims = [0])
    (hsd : d.scatterDimsToOperandDims = [0]) (hivd : d.indexVectorDim = 1)
    (x : FVec Ideal ⟨1, ![G]⟩ φ) (idx : IVec ⟨2, ![n, 1]⟩ w) (upd : FVec Ideal ⟨1, ![n]⟩ φ) (q : Fin G) :
    Host.scatterAdd (F := Ideal) d x idx upd (ix1 q)
      = x (ix1 q) + ∑ e ∈ Finset.univ.filter (fun e : Fin n => (idx (ixP e)).toInt = (q.val : ℤ)), upd (ix1 e) := by
  have hmem : ∀ i : (⟨1, ![n]⟩ : Shape).Idx,
      d.resultIdx? i idx = some (ix1 q) ↔ (idx (ixP (i 0))).toInt = (q.val : ℤ) := fun i => by
    conv_lhs => rw [eq_ix1 i]
    exact scatter_vec_resultIdx_iff d huw hiw hsd hivd idx (i 0) q
  unfold Host.scatterAdd
  rw [Ideal.hostScatterAdd_def]
  unfold Ideal.hostScatterAdd
  congr 1
  refine Finset.sum_bij' (fun i _ => i 0) (fun e _ => ix1 e) ?_ ?_ ?_ ?_ ?_
  · intro i hi
    exact Finset.mem_filter.2 ⟨Finset.mem_univ _, (hmem i).1 (Finset.mem_filter.1 hi).2⟩
  · intro e he
    exact Finset.mem_filter.2 ⟨Finset.mem_univ _, (hmem (ix1 e)).2 (Finset.mem_filter.1 he).2⟩
  · intro i _; exact (eq_ix1 i).symm
  · intro e _; rfl
  · intro i _; exact congrArg upd (eq_ix1 i)

theorem ofFin_eq_ix1 {n : Nat} (k : Fin n) : (Shape.Idx.ofFin k : (⟨1, ![n]⟩ : Shape).Idx) = ix1 k := by
  funext a
  match a with
  | ⟨0, _⟩ => rfl

theorem gather_vec_apply {α : Type} {N n w : Nat} (hN : 0 < N)
    (d : GatherDims ⟨1, ![N]⟩ ⟨2, ![n, 1]⟩ ⟨1, ![n]⟩)
    (hcoll : d.collapsedSliceDims = [0]) (hob : d.operandBatchingDims = [])
    (hsim : d.startIndexMap = [0]) (hivd : d.indexVectorDim = 1)
    (x : (⟨1, ![N]⟩ : Shape).Idx → α) (idx : IVec ⟨2, ![n, 1]⟩ w) (e : Fin n) :
    Host.gather d x idx (ix1 e) = x (ix1 (clampTo N hN (idx (ixP e)))) := by
  rw [← ofFin_eq_ix1 e, gather_take d hcoll hob hsim hivd x idx e hN, ofFin_eq_ix1]
  rfl

end Cert.LibGatherScatter
-- ==== Proof.KiPoolMath.lean ====
import proofs.«400334_j4698694221926_1_alg».proof.Defs
import proofs.«400334_j4698694221926_1_alg».proof.Proof.Gen.KernelIdeal.Skeleton
import Idealize.ShloMosaic.PureOps.Ideal
import Idealize.ShloMosaic.PureOps.Ideal.Laws
import Idealize.ShloMosaic.Lib.ValueIdx
import Idealize.ShloMosaic.Lib.ValueLayout
import Idealize.ShloMosaic.Lib.Pipeline.Value
import Idealize.ShloMosaic.Lib.StableHlo.Predicate
import Idealize.ShloMosaic.Lib.IdealHost
import Idealize.ShloMosaic.Lib.KernelVsHost
import proofs.«400334_j4698694221926_1_alg».proof.Proof.LibGatherScatter

open scoped BigOperators

noncomputable section

namespace Cert.KernelIdeal.PoolMath

open Idealize.ShloMosaic Idealize.ShloMosaic.TcCoe Idealize.ShloMosaic.ValueIdx
open Idealize.ShloMosaic.StableHlo.Predicate
open Cert.KernelIdeal
open Cert.KernelIdeal.Facts₀ Cert.KernelIdeal.Facts

variable [Cert.KernelIdeal.Facts] [Cert.ReferenceIdeal.Facts]

def onehot (batch : Vec Ideal S100000 .i32) : Vec Ideal S100000x64 .bf16 :=
  uitofp (F := Ideal) .bf16 (cmpi .eq (broadcastInDim S100000x64 ![0, 1] bcast_S100000x1_S100000x64_0_1 (broadcastInDim S100000x1 ![0] bcast_S100000_S100000x1_0 batch)) (broadcastInDim S100000x64 ![0, 1] bcast_S1x64_S100000x64_0_1 (broadcastInDim S1x64 ![1] bcast_S64_S1x64_1 (iotaInDim S64 32 0))))

theorem col_apply {α : Type} (hbc : S100000.BroadcastsInDim S100000x1 ![0]) (x : S100000.Idx → α) (j : S100000x1.Idx) :
    broadcastInDim S100000x1 ![0] hbc x j = x (ix1 (j 0)) :=
  broadcastInDim_apply _ hbc x j (ix1 (j 0)) (fun a => match a with
    | ⟨0, _⟩ => by show (j 0).val = if (100000 : Nat) = 1 then 0 else (j 0).val; rw [if_neg (by decide)])

theorem colfull_apply {α : Type} (x : S100000x1.Idx → α) (j : S100000x64.Idx) :
    broadcastInDim S100000x64 ![0, 1] bcast_S100000x1_S100000x64_0_1 x j = x (ixP (j 0)) :=
  broadcastInDim_apply _ bcast_S100000x1_S100000x64_0_1 x j (ixP (j 0)) (fun a => match a with
    | ⟨0, _⟩ => by show (j 0).val = if (100000 : Nat) = 1 then 0 else (j 0).val; rw [if_neg (by decide)]
    | ⟨1, _⟩ => by show (0 : Nat) = if (1 : Nat) = 1 then 0 else (j 1).val; rw [if_pos rfl])

theorem row_apply {α : Type} (x : S64.Idx → α) (j : S1x64.Idx) :
    broadcastInDim S1x64 ![1] bcast_S64_S1x64_1 x j = x (ix1 (j 1)) :=
  broadcastInDim_apply _ bcast_S64_S1x64_1 x j (ix1 (j 1)) (fun a => match a with
    | ⟨0, _⟩ => by show (j 1).val = if (64 : Nat) = 1 then 0 else (j 1).val; rw [if_neg (by decide)])

theorem uitofp_bit (b : BitVec 1) : (FloatOps.uitofp (F := Ideal) .bf16 b : EReal) = if b = 1#1 then 1 else 0 := by
  rcases BitVec.eq_zero_or_eq_one b with rfl | rfl
  · show (((0#1 : BitVec 1).toNat : ℝ) : EReal) = _
    simp
  · show (((1#1 : BitVec 1).toNat : ℝ) : EReal) = _
    simp

theorem id_eq_iff (v : BitVec 32) (g : Fin 64) : v = BitVec.ofNat 32 g.val ↔ v.toInt = (g.val : ℤ) := by
  have hg := g.isLt
  have hv := v.isLt
  rw [← BitVec.toNat_inj, BitVec.toNat_ofNat, BitVec.toInt_eq_toNat_cond]
  split <;> omega

-- Row n of the one-hot array has its 1 in the column of n's graph id.
theorem onehot_apply (batch : Vec Ideal S100000 .i32) (n : Fin 100000) (g : Fin 64) :
    onehot batch (ix2 n g) = if (batch (ix1 n)).toInt = (g.val : ℤ) then (1 : EReal) else 0 := by
  unfold onehot
  show FloatOps.uitofp (F := Ideal) .bf16 (IntOp.cmpi .eq _ _) = _
  rw [uitofp_bit, colfull_apply, col_apply, broadcastInDim_oneRow_apply, row_apply, iotaInDim_apply]
  simp only [cmpi_eq_iff, id_eq_iff]

theorem lhs_pool_1 (i : S64x64.Idx) (q : dot_S10000x64_S10000x64_S64x64_0_0_1_1_n_n.contr.Idx) :
    (dot_S10000x64_S10000x64_S64x64_0_0_1_1_n_n.lhsIdx i q 1).val = (i 0).val := by
  unfold DotDims.lhsIdx
  rw [dif_neg (show ¬(1 : Fin S10000x64.rank) ∈ dot_S10000x64_S10000x64_S64x64_0_0_1_1_n_n.lhsBatch by decide), dif_pos (show (1 : Fin S10000x64.rank) ∈ dot_S10000x64_S10000x64_S64x64_0_0_1_1_n_n.lhsNonContracting by decide)]
  rfl
theorem rhs_pool_1 (i : S64x64.Idx) (q : dot_S10000x64_S10000x64_S64x64_0_0_1_1_n_n.contr.Idx) :
    (dot_S10000x64_S10000x64_S64x64_0_0_1_1_n_n.rhsIdx i q 1).val = (i 1).val := by
  unfold DotDims.rhsIdx
  rw [dif_neg (show ¬(1 : Fin S10000x64.rank) ∈ dot_S10000x64_S10000x64_S64x64_0_0_1_1_n_n.rhsBatch by decide), dif_pos (show (1 : Fin S10000x64.rank) ∈ dot_S10000x64_S10000x64_S64x64_0_0_1_1_n_n.rhsNonContracting by decide)]
  rfl

theorem pay1_apply (j : S64x64.Idx) : Gen.k6_pay1 (F := Ideal) j = (0 : EReal) := by
  unfold Gen.k6_pay1
  simp only [shapeCast_self]
  show Ideal.ofBits .f32 0x00000000#32 = 0
  exact Ideal.ofBits_zero_f32

theorem pay2_apply (x0 : FVec Ideal S10000x64 .f32) (x1 : FVec Ideal S10000x64 .bf16) (acc : FVec Ideal S64x64 .f32)
    (g d : Fin 64) :
    Gen.k6_pay2 (F := Ideal) x0 x1 acc (ix2 g d) = acc (ix2 g d) + ∑ r : Fin 10000, x1 (ix2 r g) * x0 (ix2 r d) := by
  unfold Gen.k6_pay2
  simp only [shapeCast_self]
  rw [addf_apply]
  simp only [matmul]
  rw [Ideal.matmul_constant_zero_apply, ← Equiv.sum_comp (contrEquiv1 dot_S10000x64_S10000x64_S64x64_0_0_1_1_n_n 10000 rfl rfl).symm]
  congr 1
  refine Finset.sum_congr rfl fun k _ => ?_
  have hk := contrEquiv1_symm_val dot_S10000x64_S10000x64_S64x64_0_0_1_1_n_n 10000 rfl rfl k
  have el : dot_S10000x64_S10000x64_S64x64_0_0_1_1_n_n.lhsIdx (ix2 g d) ((contrEquiv1 dot_S10000x64_S10000x64_S64x64_0_0_1_1_n_n 10000 rfl rfl).symm k) = ix2 k g := funext fun a => Fin.ext (by
    match a with
    | ⟨0, _⟩ => exact (DotDims.lhsIdx_val_of_single _ rfl _ _).trans hk
    | ⟨1, _⟩ => exact lhs_pool_1 _ _)
  have er : dot_S10000x64_S10000x64_S64x64_0_0_1_1_n_n.rhsIdx (ix2 g d) ((contrEquiv1 dot_S10000x64_S10000x64_S64x64_0_0_1_1_n_n 10000 rfl rfl).symm k) = ix2 k d := funext fun a => Fin.ext (by
    match a with
    | ⟨0, _⟩ => exact (DotDims.rhsIdx_val_of_single _ rfl _ _).trans hk
    | ⟨1, _⟩ => exact rhs_pool_1 _ _)
  rw [el, er]
  rfl

def accOf (hb : Fin 10 → Vec Ideal S10000x64 .f32) (ob : Fin 10 → Vec Ideal S10000x64 .bf16) : ℕ → Vec Ideal S64x64 .f32
  | 0 => Gen.k6_pay2 (F := Ideal) (hb 0) (ob 0) (Gen.k6_pay1 (F := Ideal))
  | n + 1 => Gen.k6_pay2 (F := Ideal) (hb ⟨(n + 1) % 10, Nat.mod_lt _ (by decide)⟩) (ob ⟨(n + 1) % 10, Nat.mod_lt _ (by decide)⟩) (accOf hb ob n)

theorem accOf_zero (hb : Fin 10 → Vec Ideal S10000x64 .f32) (ob : Fin 10 → Vec Ideal S10000x64 .bf16) :
    accOf hb ob 0 = Gen.k6_pay2 (F := Ideal) (hb 0) (ob 0) (Gen.k6_pay1 (F := Ideal)) := rfl

theorem accOf_succ (hb : Fin 10 → Vec Ideal S10000x64 .f32) (ob : Fin 10 → Vec Ideal S10000x64 .bf16) (n : ℕ) (h : n + 1 < 10) :
    accOf hb ob (n + 1) = Gen.k6_pay2 (F := Ideal) (hb ⟨n + 1, h⟩) (ob ⟨n + 1, h⟩) (accOf hb ob n) := by
  have e : (⟨(n + 1) % 10, Nat.mod_lt _ (by decide)⟩ : Fin 10) = ⟨n + 1, h⟩ := Fin.ext (Nat.mod_eq_of_lt h)
  show Gen.k6_pay2 (F := Ideal) (hb ⟨(n + 1) % 10, _⟩) (ob ⟨(n + 1) % 10, _⟩) (accOf hb ob n) = _
  rw [e]

def blockSum (hb : Fin 10 → Vec Ideal S10000x64 .f32) (ob : Fin 10 → Vec Ideal S10000x64 .bf16) (g d : Fin 64) (t : Fin 10) : EReal :=
  ∑ r : Fin 10000, ob t (ix2 r g) * hb t (ix2 r d)

theorem accOf_apply_range (hb : Fin 10 → Vec Ideal S10000x64 .f32) (ob : Fin 10 → Vec Ideal S10000x64 .bf16) (g d : Fin 64) (n : ℕ) :
    accOf hb ob n (ix2 g d) = ∑ t ∈ Finset.range (n + 1), blockSum hb ob g d ⟨t % 10, Nat.mod_lt _ (by decide)⟩ := by
  induction n with
  | zero =>
    show Gen.k6_pay2 (F := Ideal) (hb 0) (ob 0) (Gen.k6_pay1 (F := Ideal)) (ix2 g d) = _
    rw [pay2_apply, pay1_apply, zero_add, Finset.sum_range_one]
    rfl
  | succ n ih =>
    show Gen.k6_pay2 (F := Ideal) (hb ⟨(n + 1) % 10, _⟩) (ob ⟨(n + 1) % 10, _⟩) (accOf hb ob n) (ix2 g d) = _
    rw [pay2_apply, ih, Finset.sum_range_succ _ (n + 1)]
    rfl

theorem accOf_nine_apply (hb : Fin 10 → Vec Ideal S10000x64 .f32) (ob : Fin 10 → Vec Ideal S10000x64 .bf16) (g d : Fin 64) :
    accOf hb ob 9 (ix2 g d) = ∑ t : Fin 10, ∑ r : Fin 10000, ob t (ix2 r g) * hb t (ix2 r d) := by
  rw [accOf_apply_range, Finset.sum_range]
  refine Finset.sum_congr rfl fun t _ => ?_
  have e : (⟨t.val % 10, Nat.mod_lt _ (by decide)⟩ : Fin 10) = t := Fin.ext (Nat.mod_eq_of_lt t.isLt)
  rw [e]
  rfl

def rowOf (t : Fin 10) (r : Fin 10000) : Fin 100000 :=
  ⟨10000 * t.val + r.val, by have := t.isLt; have := r.isLt; omega⟩

theorem sum_blocks (f : Fin 100000 → EReal) : ∑ t : Fin 10, ∑ r : Fin 10000, f (rowOf t r) = ∑ n : Fin 100000, f n := by
  rw [← Fintype.sum_prod_type']
  refine Fintype.sum_equiv (finProdFinEquiv.trans (finCongr (by norm_num))) _ _ (fun x => congrArg f (Fin.ext ?_))
  obtain ⟨t, r⟩ := x
  simp [rowOf, finProdFinEquiv]
  omega

theorem accOf_nine_eq_sum (batch : Vec Ideal S100000 .i32) (h : Vec Ideal S100000x64 .f32)
    (hb : Fin 10 → Vec Ideal S10000x64 .f32) (ob : Fin 10 → Vec Ideal S10000x64 .bf16)
    (hhb : ∀ (t : Fin 10) (r : Fin 10000) (d : Fin 64), hb t (ix2 r d) = h (ix2 (rowOf t r) d))
    (hob : ∀ (t : Fin 10) (r : Fin 10000) (g : Fin 64), ob t (ix2 r g) = onehot batch (ix2 (rowOf t r) g))
    (g d : Fin 64) :
    accOf hb ob 9 (ix2 g d) = ∑ n : Fin 100000, if (batch (ix1 n)).toInt = (g.val : ℤ) then h (ix2 n d) else 0 := by
  rw [accOf_nine_apply]
  rw [← sum_blocks (fun n => if (batch (ix1 n)).toInt = (g.val : ℤ) then h (ix2 n d) else 0)]
  refine Finset.sum_congr rfl fun t _ => Finset.sum_congr rfl fun r _ => ?_
  rw [hhb, hob, onehot_apply, ite_mul, one_mul, zero_mul]

theorem pool_eq (batch : Vec Ideal S100000 .i32) (h : Vec Ideal S100000x64 .f32)
    (hb : Fin 10 → Vec Ideal S10000x64 .f32) (ob : Fin 10 → Vec Ideal S10000x64 .bf16)
    (hhb : ∀ (t : Fin 10) (r : Fin 10000) (d : Fin 64), hb t (ix2 r d) = h (ix2 (rowOf t r) d))
    (hob : ∀ (t : Fin 10) (r : Fin 10000) (g : Fin 64), ob t (ix2 r g) = onehot batch (ix2 (rowOf t r) g)) :
    accOf hb ob 9
      = Host.scatterAdd (F := Ideal) Cert.ReferenceIdeal.scatter_S64x64_S100000x1_S100000x64_1_0_0_1
          (broadcastInDim Cert.ReferenceIdeal.S64x64 ![] Cert.ReferenceIdeal.Facts₀.bcast_S_S64x64 (constant (F := Ideal) Cert.ReferenceIdeal.S_ .f32 0x00000000#32))
          (broadcastInDim Cert.ReferenceIdeal.S100000x1 ![0] Cert.ReferenceIdeal.Facts₀.bcast_S100000_S100000x1_0 batch) h := by
  funext j
  obtain ⟨g, d, rfl⟩ : ∃ (g d : Fin 64), j = ix2 g d := ⟨j 0, j 1, eq_ix2 j⟩
  rw [accOf_nine_eq_sum batch h hb ob hhb hob, Cert.LibGatherScatter.scatterAdd_rows_apply _ rfl rfl rfl rfl, broadcastInDim_scalar_apply,
    constant_apply, Ideal.ofBits_zero_f32, zero_add, Finset.sum_filter]
  exact Finset.sum_congr rfl fun n _ => by rw [col_apply]

theorem reduces_cols : S100000x64.Reduces [0] S64 := by decide

theorem lift_cols (g : Fin 64) (n : Fin 100000) : reduces_cols.lift (ix1 g) n = ix2 n g := funext fun a => Fin.ext (by
  match a with
  | ⟨0, _⟩ => rfl
  | ⟨1, _⟩ => rfl)

theorem counts_eq (batch : Vec Ideal S100000 .i32) :
    Host.reduceAdd (F := Ideal) (extf .f32 (onehot batch) bitsLt_bf16_f32) (constant (F := Ideal) S_ .f32 0x00000000#32)
        reducesTo_S100000x64_S64_d0 h_S_
      = Host.scatterAdd (F := Ideal) Cert.ReferenceIdeal.scatter_S64_S100000x1_S100000_n_0_0_1
          (broadcastInDim Cert.ReferenceIdeal.S64 ![] Cert.ReferenceIdeal.Facts₀.bcast_S_S64 (constant (F := Ideal) Cert.ReferenceIdeal.S_ .f32 0x00000000#32))
          (broadcastInDim Cert.ReferenceIdeal.S100000x1 ![0] Cert.ReferenceIdeal.Facts₀.bcast_S100000_S100000x1_0 batch)
          (broadcastInDim Cert.ReferenceIdeal.S100000 ![] Cert.ReferenceIdeal.Facts₀.bcast_S_S100000 (constant (F := Ideal) Cert.ReferenceIdeal.S_ .f32 0x3F800000#32)) := by
  funext j
  obtain ⟨g, rfl⟩ : ∃ g : Fin 64, j = ix1 g := ⟨j 0, eq_ix1 j⟩
  rw [hostReduceAdd_apply, Ideal.hostReduceAdd_single reducesTo_S100000x64_S64_d0 reduces_cols, constant_apply, Ideal.ofBits_zero_f32, zero_add,
    Cert.LibGatherScatter.scatterAdd_vec_apply _ rfl rfl rfl rfl, broadcastInDim_scalar_apply, constant_apply, Ideal.ofBits_zero_f32, zero_add,
    Finset.sum_filter]
  refine Finset.sum_congr rfl fun n _ => ?_
  rw [extf_apply, lift_cols g n, col_apply, broadcastInDim_scalar_apply, constant_apply, Ideal.ofBits_one_f32]
  exact onehot_apply batch n g

end Cert.KernelIdeal.PoolMath
-- ==== Proof.LibMatIdx.lean ====
import Idealize.ShloMosaic.Lib.StackMember
import Idealize.ShloMosaic.Lib.ValueLayout

namespace Cert.MatIdx

open Idealize.ShloMosaic Idealize.ShloMosaic.ValueIdx Idealize.ShloMosaic.StackMember

variable {m M k n : Nat}

theorem offs1 : (![0] : Fin 1 → Nat) = fun _ => 0 := funext fun a => by fin_cases a <;> rfl
theorem offs2 : (![0, 0] : Fin 2 → Nat) = fun _ => 0 := funext fun a => by fin_cases a <;> rfl

-- `e` lays a block's rows at rows o, o + 1, … of an array and keeps the columns.
def RowsAt (e : (⟨2, ![m, n]⟩ : Shape).Idx → (⟨2, ![M, n]⟩ : Shape).Idx) (o : ℕ) : Prop :=
  ∀ y, (e y 0 : ℕ) = o + y 0 ∧ (e y 1 : ℕ) = y 1

-- Rows o, o + 1, … of X·W are those rows of X times W: both are the sum over c of X[o + a, c] * W[c, b].
theorem matmul_rowblock {φ₁ φ₂ ψ₁ ψ₂ : FTy} (X : FVec Ideal ⟨2, ![M, k]⟩ φ₁) (W : FVec Ideal ⟨2, ![k, n]⟩ φ₂)
    (x : FVec Ideal ⟨2, ![m, k]⟩ ψ₁) (w : FVec Ideal ⟨2, ![k, n]⟩ ψ₂)
    (eL : (⟨2, ![m, k]⟩ : Shape).Idx → (⟨2, ![M, k]⟩ : Shape).Idx)
    (eR : (⟨2, ![k, n]⟩ : Shape).Idx → (⟨2, ![k, n]⟩ : Shape).Idx)
    (eO : (⟨2, ![m, n]⟩ : Shape).Idx → (⟨2, ![M, n]⟩ : Shape).Idx) (o : ℕ)
    (hL : RowsAt eL o) (hR : RowsAt eR 0) (hO : RowsAt eO o)
    (hx : ∀ y, x y = X (eL y)) (hw : ∀ y, w y = W (eR y)) (j : (⟨2, ![m, n]⟩ : Shape).Idx) :
    matmul (DotDims.plain m k n) none x w (constant _ .f32 0x00000000#32) j
      = Host.dotGeneral (DotDims.plain M k n) none X W (eO j) := by
  obtain ⟨a, b, rfl⟩ : ∃ a b, j = ix2 a b := ⟨_, _, eq_ix2 j⟩
  obtain ⟨r, b', hi⟩ : ∃ (r : Fin M) (b' : Fin n), eO (ix2 a b) = ix2 r b' := ⟨_, _, eq_ix2 _⟩
  have h := hO (ix2 a b)
  rw [hi] at h
  rw [hi, matmul_zero_eq_dotGeneral, dotGeneral_plain_apply, dotGeneral_plain_apply]
  refine Finset.sum_congr rfl fun c _ => ?_
  rw [hx, hw, show eL (ix2 a c) = ix2 r c from Shape.idx_ext₂ ((hL _).1.trans h.1.symm) (hL _).2,
    show eR (ix2 c b) = ix2 c b' from Shape.idx_ext₂ ((hR _).1.trans (Nat.zero_add _)) ((hR _).2.trans h.2.symm)]

-- Row r is row r % B of the block numbered r / B.
theorem rowblock_cover {N B : Nat} (e : Fin N → (⟨2, ![B, n]⟩ : Shape).Idx → (⟨2, ![M, n]⟩ : Shape).Idx) (hM : M ≤ N * B)
    (he : ∀ t : Fin N, RowsAt (e t) (t * B)) (i : (⟨2, ![M, n]⟩ : Shape).Idx) : ∃ t y, e t y = i := by
  have hi := idx2_lt0 i
  have hB : 0 < B := Nat.pos_of_ne_zero fun h => by subst h; omega
  exact ⟨⟨(i 0).val / B, Nat.div_lt_of_lt_mul (by rw [Nat.mul_comm]; omega)⟩, ix2 ⟨(i 0).val % B, Nat.mod_lt _ hB⟩ (i 1),
    Shape.idx_ext₂ ((he _ _).1.trans (Nat.div_add_mod' _ _)) (he _ _).2⟩

section Bias
variable (bv bias : FVec Ideal ⟨1, ![n]⟩ .f32) (eB : (⟨1, ![n]⟩ : Shape).Idx → (⟨1, ![n]⟩ : Shape).Idx)
  (hB : ∀ y, (eB y 0 : ℕ) = y 0) (hb : ∀ y, bv y = bias (eB y))
  {h1 : (⟨1, ![n]⟩ : Shape).ShapeCasts ⟨2, ![1, n]⟩} {h2 : (⟨2, ![1, n]⟩ : Shape).Broadcasts ⟨2, ![m, n]⟩}
  {h3 : (⟨1, ![n]⟩ : Shape).BroadcastsInDim ⟨2, ![1, n]⟩ ![1]} {h4 : (⟨2, ![1, n]⟩ : Shape).BroadcastsInDim ⟨2, ![M, n]⟩ ![0, 1]}

-- The bias laid along a block's rows and the bias broadcast to one row and then to every row both read b[d] in column d.
include hB hb in
theorem biasrow_eq (j : (⟨2, ![m, n]⟩ : Shape).Idx) (i : (⟨2, ![M, n]⟩ : Shape).Idx) (hi : (i 1 : ℕ) = j 1) :
    broadcastTo ⟨2, ![m, n]⟩ (shapeCast ⟨2, ![1, n]⟩ bv h1) h2 j
      = broadcastInDim ⟨2, ![M, n]⟩ ![0, 1] h4 (broadcastInDim ⟨2, ![1, n]⟩ ![1] h3 bias) i := by
  obtain ⟨p, d, rfl⟩ : ∃ (p : Fin m) (d : Fin n), j = ix2 p d := ⟨_, _, eq_ix2 j⟩
  have hd := d.isLt
  rw [broadcastTo_1b_ab_apply, shapeCast_a_1a_apply, hb,
    show eB (ix1 d) = ix1 d from funext fun a => Fin.ext (match a with | ⟨0, _⟩ => hB _)]
  refine ((broadcastInDim_apply _ h4 _ i (ix2 (0 : Fin 1) d) fun ax => ?_).trans
    (broadcastInDim_apply _ h3 bias _ (ix1 d) fun ax => ?_)).symm
  · match ax with
    | ⟨0, _⟩ => rfl
    | ⟨1, _⟩ => show d.val = if n = 1 then 0 else (i 1).val; rw [hi]; split <;> [omega; rfl]
  · match ax with
    | ⟨0, _⟩ => show d.val = if n = 1 then 0 else d.val; split <;> [omega; rfl]

variable (a : FVec Ideal ⟨2, ![M, n]⟩ .f32) (x : FVec Ideal ⟨2, ![m, n]⟩ .f32)
  (eI eO : (⟨2, ![m, n]⟩ : Shape).Idx → (⟨2, ![M, n]⟩ : Shape).Idx) (o : ℕ) (hI : RowsAt eI o) (hO : RowsAt eO o)
  (hx : ∀ y, x y = a (eI y)) {h0 : (⟨2, ![m, n]⟩ : Shape).ShapeCasts ⟨2, ![m, n]⟩}

-- A row block plus the bias row is those rows of the whole array plus the broadcast bias: x[r, d] + b[d] on both sides.
include hB hb hI hO hx in
theorem biasadd_rowblock (j : (⟨2, ![m, n]⟩ : Shape).Idx) :
    addf (shapeCast ⟨2, ![m, n]⟩ x h0) (broadcastTo ⟨2, ![m, n]⟩ (shapeCast ⟨2, ![1, n]⟩ bv h1) h2) j
      = addf a (broadcastInDim ⟨2, ![M, n]⟩ ![0, 1] h4 (broadcastInDim ⟨2, ![1, n]⟩ ![1] h3 bias)) (eO j) :=
  congrArg₂ (· + ·) ((congrFun (shapeCast_self x h0) j).trans ((hx j).trans
      (congrArg a (Shape.idx_ext₂ ((hI j).1.trans (hO j).1.symm) ((hI j).2.trans (hO j).2.symm)))))
    (biasrow_eq bv bias eB hB hb j (eO j) (hO j).2)

-- The same under the maximum with zero: the splat zero and the broadcast zero read 0 everywhere.
include hB hb hI hO hx in
theorem biasrelu_rowblock {h5 : (⟨0, ![]⟩ : Shape).BroadcastsInDim ⟨2, ![M, n]⟩ ![]} (j : (⟨2, ![m, n]⟩ : Shape).Idx) :
    maximumf (addf (shapeCast ⟨2, ![m, n]⟩ x h0) (broadcastTo ⟨2, ![m, n]⟩ (shapeCast ⟨2, ![1, n]⟩ bv h1) h2))
        (broadcast ⟨2, ![m, n]⟩ (Scalar.ofBits .f32 0x00000000#32)) j
      = maximumf (addf a (broadcastInDim ⟨2, ![M, n]⟩ ![0, 1] h4 (broadcastInDim ⟨2, ![1, n]⟩ ![1] h3 bias)))
        (broadcastInDim ⟨2, ![M, n]⟩ ![] h5 (constant (F := Ideal) ⟨0, ![]⟩ .f32 0x00000000#32)) (eO j) :=
  congrArg₂ max (biasadd_rowblock bv bias eB hB hb a x eI eO o hI hO hx j)
    ((broadcastInDim_apply _ h5 (constant (F := Ideal) ⟨0, ![]⟩ .f32 0x00000000#32) (eO j) ix0 fun ax => ax.elim0).trans rfl).symm

end Bias

end Cert.MatIdx
-- ==== Proof.KiVal0.lean ====
import proofs.«400334_j4698694221926_1_alg».proof.Proof.KiR0
import proofs.«400334_j4698694221926_1_alg».proof.Proof.Gen.ReferenceIdeal
import proofs.«400334_j4698694221926_1_alg».proof.Proof.LibMatIdx

noncomputable section

namespace Cert.KernelIdeal.Hand

open Cert.KernelIdeal Cert.KernelIdeal.Gen Cert.MatIdx
open Idealize.ShloMosaic Idealize.ShloMosaic.TcCoe
open Idealize.ShloMosaic.Pipeline (Dat Cfg Window)

variable (V : (c : Dev nD) → (b : Ref sig .tc) → Buf (Elt Ideal) ((c : Thread nD τ).loc b))

theorem index_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

-- Output block t is rows 10000 t, 10000 t + 1, … of the array.
theorem embO0 (t : Fin cfg0.N) : RowsAt (M := 100000) ((cfg0.win 2).blk t).view.emb (t * 10000) := fun y => by
  obtain ⟨-, -, -, -, e4, e5⟩ := index_facts0 t
  exact ⟨by show win0_2.index t (0 : Fin 2) * 10000 + 1 * (y 0).val = _; omega,
    by show win0_2.index t (1 : Fin 2) * 128 + 1 * (y 1).val = _; omega⟩

theorem rows_cover0 (i : S100000x128.Idx) : ∃ t : Fin cfg0.N, (cfg0.win 2).flush t = true ∧ i ∈ ((cfg0.win 2).blk t).view.set := by
  obtain ⟨t, y, rfl⟩ := rowblock_cover (fun t => ((cfg0.win 2).blk t).view.emb) (by have := N_0; show 100000 ≤ grid0.N * 10000; omega) embO0 i
  exact ⟨t, flush0_2 t, View.emb_mem_set _ y⟩

-- Point t writes its row block times the whole right operand: rows 10000 t … of the whole product; the ten blocks cover the rows.
theorem final0 (c : Dev nD) :
    (dat0 (F := Ideal) V c).arrAt 2 cfg0.N = Host.dotGeneral (F := Ideal) (φ₁ := .f32) (φ₂ := .f32) Cert.ReferenceIdeal.dot_S100000x128_S128x128_S100000x128_1_0_0_1_n_n none (V c main_arg0) (V c main_arg4) :=
  (dat0 (F := Ideal) V c).arrAt_eq_of_cover 2 _ (fun t _ => by
    show (cfg0.win 2).cut (grid0.coords t) ((dat0 V c).after 2 t) = _
    rw [after0_2]
    unfold out0_2
    rw [View.canon_unit_zero offs2]
    simp only [View.ld_unit_zero (S := S10000x128) offs2, View.ld_unit_zero (S := S128x128) offs2]
    obtain ⟨e0, e1, e2, e3, -, -⟩ := index_facts0 t
    funext j
    show k0_pay1 (iblk0 V c 0 t) (iblk0 V c 1 t) j = Host.dotGeneral Cert.ReferenceIdeal.dot_S100000x128_S128x128_S100000x128_1_0_0_1_n_n none (V c main_arg0) (V c main_arg4) (((cfg0.win 2).blk t).view.emb j)
    exact matmul_rowblock (V c main_arg0) (V c main_arg4) _ _ ((cfg0.win 0).blk t).view.emb ((cfg0.win 1).blk t).view.emb _ (t * 10000)
      (fun y => ⟨by show win0_0.index t (0 : Fin 2) * 10000 + 1 * (y 0).val = _; omega,
        by show win0_0.index t (1 : Fin 2) * 128 + 1 * (y 1).val = _; omega⟩)
      (fun y => ⟨by show win0_1.index t (0 : Fin 2) * 128 + 1 * (y 0).val = _; omega,
        by show win0_1.index t (1 : Fin 2) * 128 + 1 * (y 1).val = _; omega⟩)
      (embO0 t) (fun _ => rfl) (fun _ => rfl) j) rows_cover0

end Cert.KernelIdeal.Hand

end
-- ==== Proof.KiVal1.lean ====
import proofs.«400334_j4698694221926_1_alg».proof.Proof.KiR1
import proofs.«400334_j4698694221926_1_alg».proof.Proof.Gen.ReferenceIdeal
import proofs.«400334_j4698694221926_1_alg».proof.Proof.LibMatIdx

noncomputable section

namespace Cert.KernelIdeal.Hand

open Cert.KernelIdeal Cert.KernelIdeal.Gen Cert.MatIdx
open Idealize.ShloMosaic Idealize.ShloMosaic.TcCoe
open Idealize.ShloMosaic.Pipeline (Dat Cfg Window)

variable (V : (c : Dev nD) → (b : Ref sig .tc) → Buf (Elt Ideal) ((c : Thread nD τ).loc b))

theorem index_facts1 : ∀ t : Fin cfg1.N, win1_0.index t (0 : Fin 2) = t.val ∧ win1_0.index t (1 : Fin 2) = 0
    ∧ win1_1.index t (0 : Fin 1) = 0
    ∧ win1_2.index t (0 : Fin 2) = t.val ∧ win1_2.index t (1 : Fin 2) = 0 :=
  (by decide +kernel : ∀ t : Fin grid1.N, _)

-- Output block t is rows 10000 t, 10000 t + 1, … of the array.
theorem embO1 (t : Fin cfg1.N) : RowsAt (M := 100000) ((cfg1.win 2).blk t).view.emb (t * 10000) := fun y => by
  obtain ⟨-, -, -, e3, e4⟩ := index_facts1 t
  exact ⟨by show win1_2.index t (0 : Fin 2) * 10000 + 1 * (y 0).val = _; omega,
    by show win1_2.index t (1 : Fin 2) * 128 + 1 * (y 1).val = _; omega⟩

theorem rows_cover1 (i : S100000x128.Idx) : ∃ t : Fin cfg1.N, (cfg1.win 2).flush t = true ∧ i ∈ ((cfg1.win 2).blk t).view.set := by
  obtain ⟨t, y, rfl⟩ := rowblock_cover (fun t => ((cfg1.win 2).blk t).view.emb) (by have := N_1; show 100000 ≤ grid1.N * 10000; omega) embO1 i
  exact ⟨t, flush1_2 t, View.emb_mem_set _ y⟩

-- Point t writes its row block plus the bias row, cut below at zero: rows 10000 t … of the same on the whole array; the ten blocks cover the rows.
theorem final1 (c : Dev nD) :
    (dat1 (F := Ideal) V c).arrAt 2 cfg1.N
      = maximumf (F := Ideal) (addf (V c main_v49) (broadcastInDim Cert.ReferenceIdeal.S100000x128 ![0, 1] Cert.ReferenceIdeal.Facts₀.bcast_S1x128_S100000x128_0_1
        (broadcastInDim Cert.ReferenceIdeal.S1x128 ![1] Cert.ReferenceIdeal.Facts₀.bcast_S128_S1x128_1 (V c main_arg5))))
      (broadcastInDim Cert.ReferenceIdeal.S100000x128 ![] Cert.ReferenceIdeal.Facts₀.bcast_S_S100000x128 (constant (F := Ideal) Cert.ReferenceIdeal.S_ .f32 0x00000000#32)) :=
  (dat1 (F := Ideal) V c).arrAt_eq_of_cover 2 _ (fun t _ => by
    show (cfg1.win 2).cut (grid1.coords t) ((dat1 V c).after 2 t) = _
    rw [after1_2]
    unfold out1_2
    rw [View.canon_unit_zero offs2]
    simp only [View.ld_unit_zero (S := S10000x128) offs2, View.ld_unit_zero (S := S128) offs1]
    obtain ⟨e0, e1, e2, -, -⟩ := index_facts1 t
    funext j
    show k1_pay1 (iblk1 V c 0 t) (iblk1 V c 1 t) j = _
    exact biasrelu_rowblock (iblk1 V c 1 t) (V c main_arg5) ((cfg1.win 1).blk t).view.emb
      (fun y => by show win1_1.index t (0 : Fin 1) * 128 + 1 * (y 0).val = _; omega) (fun _ => rfl)
      (V c main_v49) (iblk1 V c 0 t) ((cfg1.win 0).blk t).view.emb ((cfg1.win 2).blk t).view.emb (t * 10000)
      (fun y => ⟨by show win1_0.index t (0 : Fin 2) * 10000 + 1 * (y 0).val = _; omega,
        by show win1_0.index t (1 : Fin 2) * 128 + 1 * (y 1).val = _; omega⟩)
      (embO1 t) (fun _ => rfl) j) rows_cover1

end Cert.KernelIdeal.Hand

end
-- ==== Proof.KiVal2.lean ====
import proofs.«400334_j4698694221926_1_alg».proof.Proof.KiR2
import proofs.«400334_j4698694221926_1_alg».proof.Proof.Gen.ReferenceIdeal
import proofs.«400334_j4698694221926_1_alg».proof.Proof.LibMatIdx

noncomputable section

namespace Cert.KernelIdeal.Hand

open Cert.KernelIdeal Cert.KernelIdeal.Gen Cert.MatIdx
open Idealize.ShloMosaic Idealize.ShloMosaic.TcCoe
open Idealize.ShloMosaic.Pipeline (Dat Cfg Window)

variable (V : (c : Dev nD) → (b : Ref sig .tc) → Buf (Elt Ideal) ((c : Thread nD τ).loc b))

theorem index_facts2 : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

-- Output block t is rows 10000 t, 10000 t + 1, … of the array.
theorem embO2 (t : Fin cfg2.N) : RowsAt (M := 100000) ((cfg2.win 2).blk t).view.emb (t * 10000) := fun y => by
  obtain ⟨-, -, -, -, e4, e5⟩ := index_facts2 t
  exact ⟨by show win2_2.index t (0 : Fin 2) * 10000 + 1 * (y 0).val = _; omega,
    by show win2_2.index t (1 : Fin 2) * 128 + 1 * (y 1).val = _; omega⟩

theorem rows_cover2 (i : S100000x128.Idx) : ∃ t : Fin cfg2.N, (cfg2.win 2).flush t = true ∧ i ∈ ((cfg2.win 2).blk t).view.set := by
  obtain ⟨t, y, rfl⟩ := rowblock_cover (fun t => ((cfg2.win 2).blk t).view.emb) (by have := N_2; show 100000 ≤ grid2.N * 10000; omega) embO2 i
  exact ⟨t, flush2_2 t, View.emb_mem_set _ y⟩

-- Point t writes its row block times the whole right operand: rows 10000 t … of the whole product; the ten blocks cover the rows.
theorem final2 (c : Dev nD) :
    (dat2 (F := Ideal) V c).arrAt 2 cfg2.N = Host.dotGeneral (F := Ideal) (φ₁ := .f32) (φ₂ := .f32) Cert.ReferenceIdeal.dot_S100000x128_S128x128_S100000x128_1_0_0_1_n_n none (V c main_v50) (V c main_arg6) :=
  (dat2 (F := Ideal) V c).arrAt_eq_of_cover 2 _ (fun t _ => by
    show (cfg2.win 2).cut (grid2.coords t) ((dat2 V c).after 2 t) = _
    rw [after2_2]
    unfold out2_2
    rw [View.canon_unit_zero offs2]
    simp only [View.ld_unit_zero (S := S10000x128) offs2, View.ld_unit_zero (S := S128x128) offs2]
    obtain ⟨e0, e1, e2, e3, -, -⟩ := index_facts2 t
    funext j
    show k2_pay1 (iblk2 V c 0 t) (iblk2 V c 1 t) j = Host.dotGeneral Cert.ReferenceIdeal.dot_S100000x128_S128x128_S100000x128_1_0_0_1_n_n none (V c main_v50) (V c main_arg6) (((cfg2.win 2).blk t).view.emb j)
    exact matmul_rowblock (V c main_v50) (V c main_arg6) _ _ ((cfg2.win 0).blk t).view.emb ((cfg2.win 1).blk t).view.emb _ (t * 10000)
      (fun y => ⟨by show win2_0.index t (0 : Fin 2) * 10000 + 1 * (y 0).val = _; omega,
        by show win2_0.index t (1 : Fin 2) * 128 + 1 * (y 1).val = _; omega⟩)
      (fun y => ⟨by show win2_1.index t (0 : Fin 2) * 128 + 1 * (y 0).val = _; omega,
        by show win2_1.index t (1 : Fin 2) * 128 + 1 * (y 1).val = _; omega⟩)
      (embO2 t) (congrFun (shapeCast_self (iblk2 V c 0 t) _)) (fun _ => rfl) j) rows_cover2

end Cert.KernelIdeal.Hand

end
-- ==== Proof.KiVal3.lean ====
import proofs.«400334_j4698694221926_1_alg».proof.Proof.KiR3
import proofs.«400334_j4698694221926_1_alg».proof.Proof.Gen.ReferenceIdeal
import proofs.«400334_j4698694221926_1_alg».proof.Proof.LibMatIdx

noncomputable section

namespace Cert.KernelIdeal.Hand

open Cert.KernelIdeal Cert.KernelIdeal.Gen Cert.MatIdx
open Idealize.ShloMosaic Idealize.ShloMosaic.TcCoe
open Idealize.ShloMosaic.Pipeline (Dat Cfg Window)

variable (V : (c : Dev nD) → (b : Ref sig .tc) → Buf (Elt Ideal) ((c : Thread nD τ).loc b))

theorem index_facts3 : ∀ t : Fin cfg3.N, win3_0.index t (0 : Fin 2) = t.val ∧ win3_0.index t (1 : Fin 2) = 0
    ∧ win3_1.index t (0 : Fin 1) = 0
    ∧ win3_2.index t (0 : Fin 2) = t.val ∧ win3_2.index t (1 : Fin 2) = 0 :=
  (by decide +kernel : ∀ t : Fin grid3.N, _)

-- Output block t is rows 10000 t, 10000 t + 1, … of the array.
theorem embO3 (t : Fin cfg3.N) : RowsAt (M := 100000) ((cfg3.win 2).blk t).view.emb (t * 10000) := fun y => by
  obtain ⟨-, -, -, e3, e4⟩ := index_facts3 t
  exact ⟨by show win3_2.index t (0 : Fin 2) * 10000 + 1 * (y 0).val = _; omega,
    by show win3_2.index t (1 : Fin 2) * 128 + 1 * (y 1).val = _; omega⟩

theorem rows_cover3 (i : S100000x128.Idx) : ∃ t : Fin cfg3.N, (cfg3.win 2).flush t = true ∧ i ∈ ((cfg3.win 2).blk t).view.set := by
  obtain ⟨t, y, rfl⟩ := rowblock_cover (fun t => ((cfg3.win 2).blk t).view.emb) (by have := N_3; show 100000 ≤ grid3.N * 10000; omega) embO3 i
  exact ⟨t, flush3_2 t, View.emb_mem_set _ y⟩

-- Point t writes its row block plus the bias row, cut below at zero: rows 10000 t … of the same on the whole array; the ten blocks cover the rows.
theorem final3 (c : Dev nD) :
    (dat3 (F := Ideal) V c).arrAt 2 cfg3.N
      = maximumf (F := Ideal) (addf (V c main_v64) (broadcastInDim Cert.ReferenceIdeal.S100000x128 ![0, 1] Cert.ReferenceIdeal.Facts₀.bcast_S1x128_S100000x128_0_1
        (broadcastInDim Cert.ReferenceIdeal.S1x128 ![1] Cert.ReferenceIdeal.Facts₀.bcast_S128_S1x128_1 (V c main_arg7))))
      (broadcastInDim Cert.ReferenceIdeal.S100000x128 ![] Cert.ReferenceIdeal.Facts₀.bcast_S_S100000x128 (constant (F := Ideal) Cert.ReferenceIdeal.S_ .f32 0x00000000#32)) :=
  (dat3 (F := Ideal) V c).arrAt_eq_of_cover 2 _ (fun t _ => by
    show (cfg3.win 2).cut (grid3.coords t) ((dat3 V c).after 2 t) = _
    rw [after3_2]
    unfold out3_2
    rw [View.canon_unit_zero offs2]
    simp only [View.ld_unit_zero (S := S10000x128) offs2, View.ld_unit_zero (S := S128) offs1]
    obtain ⟨e0, e1, e2, -, -⟩ := index_facts3 t
    funext j
    show k3_pay1 (iblk3 V c 0 t) (iblk3 V c 1 t) j = _
    exact biasrelu_rowblock (iblk3 V c 1 t) (V c main_arg7) ((cfg3.win 1).blk t).view.emb
      (fun y => by show win3_1.index t (0 : Fin 1) * 128 + 1 * (y 0).val = _; omega) (fun _ => rfl)
      (V c main_v64) (iblk3 V c 0 t) ((cfg3.win 0).blk t).view.emb ((cfg3.win 2).blk t).view.emb (t * 10000)
      (fun y => ⟨by show win3_0.index t (0 : Fin 2) * 10000 + 1 * (y 0).val = _; omega,
        by show win3_0.index t (1 : Fin 2) * 128 + 1 * (y 1).val = _; omega⟩)
      (embO3 t) (fun _ => rfl) j) rows_cover3

end Cert.KernelIdeal.Hand

end
-- ==== Proof.KiVal4.lean ====
import proofs.«400334_j4698694221926_1_alg».proof.Proof.KiR4
import proofs.«400334_j4698694221926_1_alg».proof.Proof.Gen.ReferenceIdeal
import proofs.«400334_j4698694221926_1_alg».proof.Proof.LibMatIdx

noncomputable section

namespace Cert.KernelIdeal.Hand

open Cert.KernelIdeal Cert.KernelIdeal.Gen Cert.MatIdx
open Idealize.ShloMosaic Idealize.ShloMosaic.TcCoe
open Idealize.ShloMosaic.Pipeline (Dat Cfg Window)

variable (V : (c : Dev nD) → (b : Ref sig .tc) → Buf (Elt Ideal) ((c : Thread nD τ).loc b))

theorem index_facts4 : ∀ t : Fin cfg4.N, win4_0.index t (0 : Fin 2) = t.val ∧ win4_0.index t (1 : Fin 2) = 0
    ∧ win4_1.index t (0 : Fin 2) = 0 ∧ win4_1.index t (1 : Fin 2) = 0
    ∧ win4_2.index t (0 : Fin 2) = t.val ∧ win4_2.index t (1 : Fin 2) = 0 :=
  (by decide +kernel : ∀ t : Fin grid4.N, _)

-- Output block t is rows 10000 t, 10000 t + 1, … of the array.
theorem embO4 (t : Fin cfg4.N) : RowsAt (M := 100000) ((cfg4.win 2).blk t).view.emb (t * 10000) := fun y => by
  obtain ⟨-, -, -, -, e4, e5⟩ := index_facts4 t
  exact ⟨by show win4_2.index t (0 : Fin 2) * 10000 + 1 * (y 0).val = _; omega,
    by show win4_2.index t (1 : Fin 2) * 64 + 1 * (y 1).val = _; omega⟩

theorem rows_cover4 (i : S100000x64.Idx) : ∃ t : Fin cfg4.N, (cfg4.win 2).flush t = true ∧ i ∈ ((cfg4.win 2).blk t).view.set := by
  obtain ⟨t, y, rfl⟩ := rowblock_cover (fun t => ((cfg4.win 2).blk t).view.emb) (by have := N_4; show 100000 ≤ grid4.N * 10000; omega) embO4 i
  exact ⟨t, flush4_2 t, View.emb_mem_set _ y⟩

-- Point t writes its row block times the whole right operand: rows 10000 t … of the whole product; the ten blocks cover the rows.
theorem final4 (c : Dev nD) :
    (dat4 (F := Ideal) V c).arrAt 2 cfg4.N = Host.dotGeneral (F := Ideal) (φ₁ := .f32) (φ₂ := .f32) Cert.ReferenceIdeal.dot_S100000x128_S128x64_S100000x64_1_0_0_1_n_n none (V c main_v65) (V c main_arg8) :=
  (dat4 (F := Ideal) V c).arrAt_eq_of_cover 2 _ (fun t _ => by
    show (cfg4.win 2).cut (grid4.coords t) ((dat4 V c).after 2 t) = _
    rw [after4_2]
    unfold out4_2
    rw [View.canon_unit_zero offs2]
    simp only [View.ld_unit_zero (S := S10000x128) offs2, View.ld_unit_zero (S := S128x64) offs2]
    obtain ⟨e0, e1, e2, e3, -, -⟩ := index_facts4 t
    funext j
    show k4_pay1 (iblk4 V c 0 t) (iblk4 V c 1 t) j = Host.dotGeneral Cert.ReferenceIdeal.dot_S100000x128_S128x64_S100000x64_1_0_0_1_n_n none (V c main_v65) (V c main_arg8) (((cfg4.win 2).blk t).view.emb j)
    exact matmul_rowblock (V c main_v65) (V c main_arg8) _ _ ((cfg4.win 0).blk t).view.emb ((cfg4.win 1).blk t).view.emb _ (t * 10000)
      (fun y => ⟨by show win4_0.index t (0 : Fin 2) * 10000 + 1 * (y 0).val = _; omega,
        by show win4_0.index t (1 : Fin 2) * 128 + 1 * (y 1).val = _; omega⟩)
      (fun y => ⟨by show win4_1.index t (0 : Fin 2) * 128 + 1 * (y 0).val = _; omega,
        by show win4_1.index t (1 : Fin 2) * 64 + 1 * (y 1).val = _; omega⟩)
      (embO4 t) (congrFun (shapeCast_self (iblk4 V c 0 t) _)) (fun _ => rfl) j) rows_cover4

end Cert.KernelIdeal.Hand

end
-- ==== Proof.KiVal5.lean ====
import proofs.«400334_j4698694221926_1_alg».proof.Proof.KiR5
import proofs.«400334_j4698694221926_1_alg».proof.Proof.Gen.ReferenceIdeal
import proofs.«400334_j4698694221926_1_alg».proof.Proof.LibMatIdx

noncomputable section

namespace Cert.KernelIdeal.Hand

open Cert.KernelIdeal Cert.KernelIdeal.Gen Cert.MatIdx
open Idealize.ShloMosaic Idealize.ShloMosaic.TcCoe
open Idealize.ShloMosaic.Pipeline (Dat Cfg Window)

variable (V : (c : Dev nD) → (b : Ref sig .tc) → Buf (Elt Ideal) ((c : Thread nD τ).loc b))

theorem index_facts5 : ∀ t : Fin cfg5.N, win5_0.index t (0 : Fin 2) = t.val ∧ win5_0.index t (1 : Fin 2) = 0
    ∧ win5_1.index t (0 : Fin 1) = 0
    ∧ win5_2.index t (0 : Fin 2) = t.val ∧ win5_2.index t (1 : Fin 2) = 0 :=
  (by decide +kernel : ∀ t : Fin grid5.N, _)

-- Output block t is rows 10000 t, 10000 t + 1, … of the array.
theorem embO5 (t : Fin cfg5.N) : RowsAt (M := 100000) ((cfg5.win 2).blk t).view.emb (t * 10000) := fun y => by
  obtain ⟨-, -, -, e3, e4⟩ := index_facts5 t
  exact ⟨by show win5_2.index t (0 : Fin 2) * 10000 + 1 * (y 0).val = _; omega,
    by show win5_2.index t (1 : Fin 2) * 64 + 1 * (y 1).val = _; omega⟩

theorem rows_cover5 (i : S100000x64.Idx) : ∃ t : Fin cfg5.N, (cfg5.win 2).flush t = true ∧ i ∈ ((cfg5.win 2).blk t).view.set := by
  obtain ⟨t, y, rfl⟩ := rowblock_cover (fun t => ((cfg5.win 2).blk t).view.emb) (by have := N_5; show 100000 ≤ grid5.N * 10000; omega) embO5 i
  exact ⟨t, flush5_2 t, View.emb_mem_set _ y⟩

-- Point t writes its row block plus the bias row: rows 10000 t … of the same on the whole array; the ten blocks cover the rows.
theorem final5 (c : Dev nD) :
    (dat5 (F := Ideal) V c).arrAt 2 cfg5.N
      = addf (F := Ideal) (φ := .f32) (V c main_v79) (broadcastInDim Cert.ReferenceIdeal.S100000x64 ![0, 1] Cert.ReferenceIdeal.Facts₀.bcast_S1x64_S100000x64_0_1 (broadcastInDim Cert.ReferenceIdeal.S1x64 ![1] Cert.ReferenceIdeal.Facts₀.bcast_S64_S1x64_1 (V c main_arg9))) :=
  (dat5 (F := Ideal) V c).arrAt_eq_of_cover 2 _ (fun t _ => by
    show (cfg5.win 2).cut (grid5.coords t) ((dat5 V c).after 2 t) = _
    rw [after5_2]
    unfold out5_2
    rw [View.canon_unit_zero offs2]
    simp only [View.ld_unit_zero (S := S10000x64) offs2, View.ld_unit_zero (S := S64) offs1]
    obtain ⟨e0, e1, e2, -, -⟩ := index_facts5 t
    funext j
    show k5_pay1 (iblk5 V c 0 t) (iblk5 V c 1 t) j = _
    exact biasadd_rowblock (iblk5 V c 1 t) (V c main_arg9) ((cfg5.win 1).blk t).view.emb
      (fun y => by show win5_1.index t (0 : Fin 1) * 64 + 1 * (y 0).val = _; omega) (fun _ => rfl)
      (V c main_v79) (iblk5 V c 0 t) ((cfg5.win 0).blk t).view.emb ((cfg5.win 2).blk t).view.emb (t * 10000)
      (fun y => ⟨by show win5_0.index t (0 : Fin 2) * 10000 + 1 * (y 0).val = _; omega,
        by show win5_0.index t (1 : Fin 2) * 64 + 1 * (y 1).val = _; omega⟩)
      (embO5 t) (fun _ => rfl) j) rows_cover5

end Cert.KernelIdeal.Hand

end
-- ==== Proof.KiVal6.lean ====
import proofs.«400334_j4698694221926_1_alg».proof.Proof.KiR6
import proofs.«400334_j4698694221926_1_alg».proof.Proof.KiPoolMath
import proofs.«400334_j4698694221926_1_alg».proof.Proof.Gen.ReferenceIdeal
import Idealize.ShloMosaic.Lib.ValueIdx

noncomputable section

namespace Cert.KernelIdeal.Hand

open Cert.KernelIdeal Cert.KernelIdeal.Gen
open Idealize.ShloMosaic Idealize.ShloMosaic.TcCoe
open Idealize.ShloMosaic.Pipeline (Dat Cfg Window)
open Idealize.ShloMosaic.ValueIdx

variable (V : (c : Dev nD) → (b : Ref sig .tc) → Buf (Elt Ideal) ((c : Thread nD τ).loc b))

theorem lt9_6 : 9 < cfg6.N := by rw [show cfg6.N = 10 from N_6]; decide

theorem idx6 : ∀ t : Fin cfg6.N, win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0 :=
  (by decide +kernel : ∀ t : Fin grid6.N, _)

-- The output window's one block is the whole 64×64 array.
theorem emb_blk6_2 (t : Fin cfg6.N) (j : S64x64.Idx) : ((cfg6.win 2).blk t).view.emb j = j := by
  obtain ⟨-, -, -, -, e0, e1⟩ := idx6 t
  exact Shape.idx_ext₂ (by show win6_2.index t (0 : Fin 2) * 64 + 1 * (j 0).val = _; omega)
    (by show win6_2.index t (1 : Fin 2) * 64 + 1 * (j 1).val = _; omega)

-- Only the last point writes back, and it writes the accumulator after point 9 over the whole array.
theorem final6_acc (c : Dev nD) : (dat6 V c).arrAt 2 cfg6.N = acc6 V c 9 lt9_6 :=
  (dat6 V c).arrAt_eq_of_cover 2 _ (fun t hf => by
    have hN : cfg6.N = 10 := N_6
    have h9 : t.val = 9 := by have := (flush6_2 t).mp hf; have := t.isLt; omega
    show (cfg6.win 2).cut (grid6.coords t) ((dat6 V c).after 2 t) = _
    rw [after6_2, fin6_eq]
    funext j
    show acc6 V c t.val t.isLt j = acc6 V c 9 lt9_6 (((cfg6.win 2).blk t).view.emb j)
    rw [emb_blk6_2]
    obtain ⟨n, hn⟩ := t
    subst h9
    rfl) fun i =>
    ⟨⟨9, lt9_6⟩, (flush6_2 _).mpr rfl, by have := View.emb_mem_set ((cfg6.win 2).blk ⟨9, lt9_6⟩).view i; rwa [emb_blk6_2] at this⟩

def pt6 (t : Fin 10) : Fin cfg6.N := ⟨t.val, lt_of_lt_of_eq t.isLt N_6.symm⟩

def hb6 (c : Dev nD) (t : Fin 10) : Vec Ideal S10000x64 .f32 := iblk6 V c 0 (pt6 t)
def ob6 (c : Dev nD) (t : Fin 10) : Vec Ideal S10000x64 .bf16 := iblk6 V c 1 (pt6 t)

-- Row r of point t's block, in either input window, is row 10000 t + r of its array.
theorem blk6 (c : Dev nD) (t : Fin 10) (r : Fin 10000) (d : Fin 64) :
    hb6 V c t (ix2 r d) = (V c main_v80 : Vec Ideal S100000x64 .f32) (ix2 (PoolMath.rowOf t r) d)
      ∧ ob6 V c t (ix2 r d) = (V c main_v87 : Vec Ideal S100000x64 .bf16) (ix2 (PoolMath.rowOf t r) d) := by
  obtain ⟨e0, e1, e2, e3, -, -⟩ := idx6 (pt6 t)
  have ht : (pt6 t).val = t.val := rfl
  have hr : (PoolMath.rowOf t r).val = 10000 * t.val + r.val := rfl
  exact ⟨congrArg (V c main_v80) (Shape.idx_ext₂ (by show win6_0.index (pt6 t) (0 : Fin 2) * 10000 + 1 * r.val = (PoolMath.rowOf t r).val; omega)
      (by show win6_0.index (pt6 t) (1 : Fin 2) * 64 + 1 * d.val = d.val; omega)),
    congrArg (V c main_v87) (Shape.idx_ext₂ (by show win6_1.index (pt6 t) (0 : Fin 2) * 10000 + 1 * r.val = (PoolMath.rowOf t r).val; omega)
      (by show win6_1.index (pt6 t) (1 : Fin 2) * 64 + 1 * d.val = d.val; omega))⟩

-- The accumulator is the reset followed by one update per point.
theorem acc6_eq_accOf (c : Dev nD) : ∀ (n : ℕ) (h : n < cfg6.N), acc6 V c n h = PoolMath.accOf (hb6 V c) (ob6 V c) n
  | 0, h => by
    show step6 (iblk6 V c 0 ⟨0, h⟩) (iblk6 V c 1 ⟨0, h⟩) zero6 = _
    rw [step6_eq, zero6_eq]
    exact (PoolMath.accOf_zero (hb6 V c) (ob6 V c)).symm
  | n + 1, h => by
    show step6 (iblk6 V c 0 ⟨n + 1, h⟩) (iblk6 V c 1 ⟨n + 1, h⟩) (acc6 V c n (Nat.lt_of_succ_lt h)) = _
    rw [step6_eq, acc6_eq_accOf c n]
    exact (PoolMath.accOf_succ (hb6 V c) (ob6 V c) n (lt_of_lt_of_eq h N_6)).symm

theorem final6 (c : Dev nD) (hoh : V c main_v87 = PoolMath.onehot (V c main_arg2)) :
    (dat6 V c).arrAt 2 cfg6.N
      = Host.scatterAdd (F := Ideal) Cert.ReferenceIdeal.scatter_S64x64_S100000x1_S100000x64_1_0_0_1
          (broadcastInDim Cert.ReferenceIdeal.S64x64 ![] Cert.ReferenceIdeal.Facts₀.bcast_S_S64x64 (constant (F := Ideal) Cert.ReferenceIdeal.S_ .f32 0x00000000#32))
          (broadcastInDim Cert.ReferenceIdeal.S100000x1 ![0] Cert.ReferenceIdeal.Facts₀.bcast_S100000_S100000x1_0 (V c main_arg2)) (V c main_v80) := by
  rw [final6_acc, acc6_eq_accOf V c 9 lt9_6]
  exact PoolMath.pool_eq (V c main_arg2) (V c main_v80) (hb6 V c) (ob6 V c)
    (fun t r d => (blk6 V c t r d).1) (fun t r g => (blk6 V c t r g).2.trans (congrFun hoh _))

end Cert.KernelIdeal.Hand

end
-- ==== Proof.KiPrefix.lean ====
import proofs.«400334_j4698694221926_1_alg».proof.Proof.Gen.KernelIdeal.Regions
import Idealize.ShloMosaic.Lib.StableHlo.Run

set_option maxRecDepth 16384

noncomputable section

namespace Cert.KernelIdeal.Hand

open Cert.KernelIdeal Cert.KernelIdeal.Gen Idealize.ShloMosaic Idealize.ShloMosaic.TcCoe Idealize.SL.Sem Idealize.ShloMosaic.StableHlo

variable {F : FTy → Type} [FloatOps F]

def srcK (e : (⟨S2x600000, .i32⟩ : BufTy).Contents (Elt F)) : (⟨S700000, .i32⟩ : BufTy).Contents (Elt F) :=
  concatenate S700000 0
    [⟨S600000, fun i => shapeCast S600000 (extractStridedSlice S1x600000 ![0, 0] e slices_S2x600000_S1x600000_0_0) shapeCasts_S1x600000_S600000 i⟩,
     ⟨S100000, iotaInDim S100000 32 0⟩] concatenates_S600000_S100000_S700000_d0

def dstK (e : (⟨S2x600000, .i32⟩ : BufTy).Contents (Elt F)) : (⟨S700000, .i32⟩ : BufTy).Contents (Elt F) :=
  concatenate S700000 0
    [⟨S600000, fun i => shapeCast S600000 (extractStridedSlice S1x600000 ![1, 0] e slices_S2x600000_S1x600000_1_0) shapeCasts_S1x600000_S600000 i⟩,
     ⟨S100000, iotaInDim S100000 32 0⟩] concatenates_S600000_S100000_S700000_d0

def wK (ew : (⟨S600000, .f32⟩ : BufTy).Contents (Elt F)) : (⟨S700000, .f32⟩ : BufTy).Contents (Elt F) :=
  concatenate S700000 0
    [⟨S600000, ew⟩,
     ⟨S100000, broadcastInDim S100000 ![] bcast_S_S100000 (constant (F := F) S_ .f32 0x3F800000#32)⟩] concatenates_S600000_S100000_S700000_d0

def zerosK : (⟨S100000, .f32⟩ : BufTy).Contents (Elt F) :=
  broadcastInDim S100000 ![] bcast_S_S100000 (constant (F := F) S_ .f32 0x00000000#32)

def degK (e : (⟨S2x600000, .i32⟩ : BufTy).Contents (Elt F)) (ew : (⟨S600000, .f32⟩ : BufTy).Contents (Elt F)) :
    (⟨S100000, .f32⟩ : BufTy).Contents (Elt F) :=
  Host.scatterAdd scatter_S100000_S700000x1_S700000_n_0_0_1 (zerosK (F := F))
    (broadcastInDim S700000x1 ![0] bcast_S700000_S700000x1_0 (dstK e)) (wK ew)

def posK (e : (⟨S2x600000, .i32⟩ : BufTy).Contents (Elt F)) (ew : (⟨S600000, .f32⟩ : BufTy).Contents (Elt F)) :
    (⟨S100000, .i1⟩ : BufTy).Contents (Elt F) :=
  cmpf .ogt (degK e ew) (zerosK (F := F))

def safeK (e : (⟨S2x600000, .i32⟩ : BufTy).Contents (Elt F)) (ew : (⟨S600000, .f32⟩ : BufTy).Contents (Elt F)) :
    (⟨S100000, .f32⟩ : BufTy).Contents (Elt F) :=
  select (posK e ew) (degK e ew) (broadcastInDim S100000 ![] bcast_S_S100000 (id (constant (F := F) S_ .f32 0x3F800000#32)))

def rsK (e : (⟨S2x600000, .i32⟩ : BufTy).Contents (Elt F)) (ew : (⟨S600000, .f32⟩ : BufTy).Contents (Elt F)) :
    (⟨S100000, .f32⟩ : BufTy).Contents (Elt F) :=
  Host.rsqrt (safeK e ew)

def disK (e : (⟨S2x600000, .i32⟩ : BufTy).Contents (Elt F)) (ew : (⟨S600000, .f32⟩ : BufTy).Contents (Elt F)) :
    (⟨S100000, .f32⟩ : BufTy).Contents (Elt F) :=
  select (posK e ew) (rsK e ew) (broadcastInDim S100000 ![] bcast_S_S100000 (id (constant (F := F) S_ .f32 0x00000000#32)))

def normIdxK (x : (⟨S700000, .i32⟩ : BufTy).Contents (Elt F)) : (⟨S700000x1, .i32⟩ : BufTy).Contents (Elt F) :=
  broadcastInDim S700000x1 ![0] bcast_S700000_S700000x1_0
    (select (cmpi .slt x (broadcastInDim (s := S_) S700000 ![] bcast_S_S700000 (constantI S_ 32 0#32 : (⟨S_, .i32⟩ : BufTy).Contents (Elt F))))
      (addi x (broadcastInDim (s := S_) S700000 ![] bcast_S_S700000 (constantI S_ 32 100000#32 : (⟨S_, .i32⟩ : BufTy).Contents (Elt F)))) x)

def normK (e : (⟨S2x600000, .i32⟩ : BufTy).Contents (Elt F)) (ew : (⟨S600000, .f32⟩ : BufTy).Contents (Elt F)) :
    (⟨S700000, .f32⟩ : BufTy).Contents (Elt F) :=
  mulf (mulf (Host.gather gather_S100000_S700000x1_S700000_n_0_n_n_0_1_1 (disK e ew) (normIdxK (srcK e))) (wK ew))
    (Host.gather gather_S100000_S700000x1_S700000_n_0_n_n_0_1_1 (disK e ew) (normIdxK (dstK e)))

section Stretches

variable (W : Valuation τ sig (Elt F))

theorem st0_v3 : after hostOps0 W (Proc.devRef .tc main_v3) = srcK (W (Proc.devRef .tc main_arg1)) := by
  after_results; rfl
theorem st0_v7 : after hostOps0 W (Proc.devRef .tc main_v7) = dstK (W (Proc.devRef .tc main_arg1)) := by
  after_results; rfl
theorem st0_v9 : after hostOps0 W (Proc.devRef .tc main_v9) = wK (W (Proc.devRef .tc main_arg3)) := by
  after_results; rfl
theorem st0_v12 : after hostOps0 W (Proc.devRef .tc main_v12) = degK (W (Proc.devRef .tc main_arg1)) (W (Proc.devRef .tc main_arg3)) := by
  after_results; rfl
theorem st0_v14 : after hostOps0 W (Proc.devRef .tc main_v14) = posK (W (Proc.devRef .tc main_arg1)) (W (Proc.devRef .tc main_arg3)) := by
  after_results; rfl
theorem st0_v16 : after hostOps0 W (Proc.devRef .tc main_v16) = posK (W (Proc.devRef .tc main_arg1)) (W (Proc.devRef .tc main_arg3)) := by
  after_results; rfl
theorem st0_cst_3 : after hostOps0 W (Proc.devRef .tc main_cst_3) = (constant (F := F) S_ .f32 0x3F800000#32 : (⟨S_, .f32⟩ : BufTy).Contents (Elt F)) := by
  after_results

theorem st1_v17 {p : (⟨S100000, .i1⟩ : BufTy).Contents (Elt F)} {d : (⟨S100000, .f32⟩ : BufTy).Contents (Elt F)} {k : (⟨S_, .f32⟩ : BufTy).Contents (Elt F)}
    (hp : W (Proc.devRef .tc main_v16) = p) (hd : W (Proc.devRef .tc main_v12) = d) (hk : W (Proc.devRef .tc main_cst_3) = k) :
    after hostOps0_1 W (Proc.devRef .tc main_v17) = select p d (broadcastInDim S100000 ![] bcast_S_S100000 (id k)) := by
  subst hp hd hk; after_results; rfl

theorem st2_v18 {x : (⟨S100000, .f32⟩ : BufTy).Contents (Elt F)} (hx : W (Proc.devRef .tc main_v17) = x) :
    after hostOps0_2 W (Proc.devRef .tc main_v18) = Host.rsqrt x := by
  subst hx; after_results
theorem st2_cst_4 : after hostOps0_2 W (Proc.devRef .tc main_cst_4) = (constant (F := F) S_ .f32 0x00000000#32 : (⟨S_, .f32⟩ : BufTy).Contents (Elt F)) := by
  after_results

theorem st3_v19 {p : (⟨S100000, .i1⟩ : BufTy).Contents (Elt F)} {d : (⟨S100000, .f32⟩ : BufTy).Contents (Elt F)} {k : (⟨S_, .f32⟩ : BufTy).Contents (Elt F)}
    (hp : W (Proc.devRef .tc main_v14) = p) (hd : W (Proc.devRef .tc main_v18) = d) (hk : W (Proc.devRef .tc main_cst_4) = k) :
    after hostOps0_3 W (Proc.devRef .tc main_v19) = select p d (broadcastInDim S100000 ![] bcast_S_S100000 (id k)) := by
  subst hp hd hk; after_results; rfl

theorem st4_v35 {s t : (⟨S700000, .i32⟩ : BufTy).Contents (Elt F)} {w : (⟨S700000, .f32⟩ : BufTy).Contents (Elt F)} {d : (⟨S100000, .f32⟩ : BufTy).Contents (Elt F)}
    (hs : W (Proc.devRef .tc main_v3) = s) (ht : W (Proc.devRef .tc main_v7) = t) (hw : W (Proc.devRef .tc main_v9) = w) (hd : W (Proc.devRef .tc main_v19) = d) :
    after hostOps0_4 W (Proc.devRef .tc main_v35)
      = mulf (mulf (Host.gather gather_S100000_S700000x1_S700000_n_0_n_n_0_1_1 d (normIdxK s)) w)
          (Host.gather gather_S100000_S700000x1_S700000_n_0_n_n_0_1_1 d (normIdxK t)) := by
  subst hs ht hw hd; after_results_simp; rfl

end Stretches

section Prefix

variable (m : (ℓ : Loc nD τ sig) → Buf (Elt F) ℓ) (c : Dev nD)

theorem v1_v3 : V1 m c main_v3 = srcK (m ((c : Thread nD τ).loc main_arg1)) := st0_v3 (V0 m c)
theorem v1_v7 : V1 m c main_v7 = dstK (m ((c : Thread nD τ).loc main_arg1)) := st0_v7 (V0 m c)
theorem v1_v9 : V1 m c main_v9 = wK (m ((c : Thread nD τ).loc main_arg3)) := st0_v9 (V0 m c)
theorem v1_v12 : V1 m c main_v12 = degK (m ((c : Thread nD τ).loc main_arg1)) (m ((c : Thread nD τ).loc main_arg3)) := st0_v12 (V0 m c)
theorem v1_v14 : V1 m c main_v14 = posK (m ((c : Thread nD τ).loc main_arg1)) (m ((c : Thread nD τ).loc main_arg3)) := st0_v14 (V0 m c)
theorem v1_v16 : V1 m c main_v16 = posK (m ((c : Thread nD τ).loc main_arg1)) (m ((c : Thread nD τ).loc main_arg3)) := st0_v16 (V0 m c)
theorem v1_cst_3 : V1 m c main_cst_3 = (constant (F := F) S_ .f32 0x3F800000#32 : (⟨S_, .f32⟩ : BufTy).Contents (Elt F)) := st0_cst_3 (V0 m c)

theorem v2_v17 : V2 m c main_v17 = safeK (m ((c : Thread nD τ).loc main_arg1)) (m ((c : Thread nD τ).loc main_arg3)) :=
  st1_v17 (V1 m c) (v1_v16 m c) (v1_v12 m c) (v1_cst_3 m c)

theorem v3_v18 : V3 m c main_v18 = rsK (m ((c : Thread nD τ).loc main_arg1)) (m ((c : Thread nD τ).loc main_arg3)) :=
  st2_v18 (V2 m c) (v2_v17 m c)
theorem v3_cst_4 : V3 m c main_cst_4 = (constant (F := F) S_ .f32 0x00000000#32 : (⟨S_, .f32⟩ : BufTy).Contents (Elt F)) := st2_cst_4 (V2 m c)

theorem v4_v19 : V4 m c main_v19 = disK (m ((c : Thread nD τ).loc main_arg1)) (m ((c : Thread nD τ).loc main_arg3)) :=
  st3_v19 (V3 m c)
    ((V3_of m c main_v14 (by decide)).trans <| (V2_of m c main_v14 (by decide)).trans (v1_v14 m c))
    (v3_v18 m c) (v3_cst_4 m c)

-- What the second, third and fourth stretch do not write is as the first left it.
theorem V4_V1 (r : Ref sig .tc) (h : r ∉ hostOps0_1_W ++ hostOps0_2_W ++ hostOps0_3_W) : V4 m c r = V1 m c r := by
  simp only [List.mem_append, not_or] at h
  exact (V4_of m c r h.2).trans <| (V3_of m c r h.1.2).trans (V2_of m c r h.1.1)

theorem pre_v3 : V5 m c main_v3 = srcK (m ((c : Thread nD τ).loc main_arg1)) :=
  (V5_of m c main_v3 (by decide)).trans <| (V4_V1 m c main_v3 (by decide)).trans (v1_v3 m c)

theorem pre_v7 : V5 m c main_v7 = dstK (m ((c : Thread nD τ).loc main_arg1)) :=
  (V5_of m c main_v7 (by decide)).trans <| (V4_V1 m c main_v7 (by decide)).trans (v1_v7 m c)

theorem pre_v35 : V5 m c main_v35 = normK (m ((c : Thread nD τ).loc main_arg1)) (m ((c : Thread nD τ).loc main_arg3)) :=
  st4_v35 (V4 m c) ((V4_V1 m c main_v3 (by decide)).trans (v1_v3 m c)) ((V4_V1 m c main_v7 (by decide)).trans (v1_v7 m c))
    ((V4_V1 m c main_v9 (by decide)).trans (v1_v9 m c)) (v4_v19 m c)

-- A buffer none of the five stretches writes is as launched when the first region is entered.
theorem pre_arg (r : Ref sig .tc) (h : r ∉ hostOps0_W ++ hostOps0_1_W ++ hostOps0_2_W ++ hostOps0_3_W ++ hostOps0_4_W) :
    V5 m c r = m ((c : Thread nD τ).loc r) := by
  simp only [List.mem_append, not_or] at h
  exact (V5_of m c r h.2).trans <| (V4_of m c r h.1.2).trans <| (V3_of m c r h.1.1.2).trans <| (V2_of m c r h.1.1.1.2).trans (V1_of m c r h.1.1.1.1)

end Prefix

end Cert.KernelIdeal.Hand
-- ==== Proof.KiChain.lean ====
import proofs.«400334_j4698694221926_1_alg».proof.Proof.KiOut
import proofs.«400334_j4698694221926_1_alg».proof.Proof.KiPoolMath
import proofs.«400334_j4698694221926_1_alg».proof.Proof.KiVal0
import proofs.«400334_j4698694221926_1_alg».proof.Proof.KiVal1
import proofs.«400334_j4698694221926_1_alg».proof.Proof.KiVal2
import proofs.«400334_j4698694221926_1_alg».proof.Proof.KiVal3
import proofs.«400334_j4698694221926_1_alg».proof.Proof.KiVal4
import proofs.«400334_j4698694221926_1_alg».proof.Proof.KiVal5
import proofs.«400334_j4698694221926_1_alg».proof.Proof.KiVal6
import proofs.«400334_j4698694221926_1_alg».proof.Proof.KiPrefix
set_option maxRecDepth 16384

noncomputable section

namespace Cert.KernelIdeal.Hand

open Cert.KernelIdeal Cert.KernelIdeal.Gen
open Idealize.ShloMosaic Idealize.ShloMosaic.TcCoe Idealize.SL.Sem Idealize.ShloMosaic.StableHlo

variable (m : (ℓ : Loc nD τ sig) → Buf (Elt Ideal) ℓ) (c : Dev nD)

theorem C5_arg0 : C5 m c main_arg0 = m ((c.tc : Thread nD τ).loc main_arg0) := pre_arg m c main_arg0 (by decide)
theorem C5_arg2 : C5 m c main_arg2 = m ((c.tc : Thread nD τ).loc main_arg2) := pre_arg m c main_arg2 (by decide)
theorem C5_arg4 : C5 m c main_arg4 = m ((c.tc : Thread nD τ).loc main_arg4) := pre_arg m c main_arg4 (by decide)
theorem C5_arg5 : C5 m c main_arg5 = m ((c.tc : Thread nD τ).loc main_arg5) := pre_arg m c main_arg5 (by decide)
theorem C5_arg6 : C5 m c main_arg6 = m ((c.tc : Thread nD τ).loc main_arg6) := pre_arg m c main_arg6 (by decide)
theorem C5_arg7 : C5 m c main_arg7 = m ((c.tc : Thread nD τ).loc main_arg7) := pre_arg m c main_arg7 (by decide)
theorem C5_arg8 : C5 m c main_arg8 = m ((c.tc : Thread nD τ).loc main_arg8) := pre_arg m c main_arg8 (by decide)
theorem C5_arg9 : C5 m c main_arg9 = m ((c.tc : Thread nD τ).loc main_arg9) := pre_arg m c main_arg9 (by decide)

-- A buffer that no host stretch after the first region writes and no region writes back.
abbrev Untouched (r : Ref sig .tc) : Prop :=
  r ≠ main_v36 ∧ r ∉ hostOps1_W ∧ r ≠ main_v50 ∧ r ≠ main_v51 ∧ r ∉ hostOps3_W ∧ r ≠ main_v65 ∧ r ≠ main_v66
    ∧ r ∉ hostOps5_W ∧ r ≠ main_v80 ∧ r ∉ hostOps6_W ∧ r ≠ main_v88

variable {r : Ref sig .tc}

theorem carry6 (h : Untouched r) : C6 m c r = C5 m c r := C6_ne m c r h.1
theorem carry7 (h : Untouched r) : C7 m c r = C5 m c r := (keep7 m c r h.2.1).trans (carry6 m c h)
theorem carry8 (h : Untouched r) : C8 m c r = C5 m c r := (C8_ne m c r h.2.2.1).trans (carry7 m c h)
theorem carry9 (h : Untouched r) : C9 m c r = C5 m c r := (C9_ne m c r h.2.2.2.1).trans (carry8 m c h)
theorem carry10 (h : Untouched r) : C10 m c r = C5 m c r := (keep10 m c r h.2.2.2.2.1).trans (carry9 m c h)
theorem carry11 (h : Untouched r) : C11 m c r = C5 m c r := (C11_ne m c r h.2.2.2.2.2.1).trans (carry10 m c h)
theorem carry12 (h : Untouched r) : C12 m c r = C5 m c r := (C12_ne m c r h.2.2.2.2.2.2.1).trans (carry11 m c h)
theorem carry13 (h : Untouched r) : C13 m c r = C5 m c r := (keep13 m c r h.2.2.2.2.2.2.2.1).trans (carry12 m c h)
theorem carry14 (h : Untouched r) : C14 m c r = C5 m c r := (C14_ne m c r h.2.2.2.2.2.2.2.2.1).trans (carry13 m c h)
theorem carry15 (h : Untouched r) : C15 m c r = C5 m c r := (keep15 m c r h.2.2.2.2.2.2.2.2.2.1).trans (carry14 m c h)
theorem carry16 (h : Untouched r) : C16 m c r = C5 m c r := (C16_ne m c r h.2.2.2.2.2.2.2.2.2.2).trans (carry15 m c h)

theorem un_v3 : Untouched main_v3 := by decide
theorem un_v7 : Untouched main_v7 := by decide
theorem un_v35 : Untouched main_v35 := by decide
theorem un_arg2 : Untouched main_arg2 := by decide
theorem un_arg5 : Untouched main_arg5 := by decide
theorem un_arg6 : Untouched main_arg6 := by decide
theorem un_arg7 : Untouched main_arg7 := by decide
theorem un_arg8 : Untouched main_arg8 := by decide
theorem un_arg9 : Untouched main_arg9 := by decide

section Outputs
variable (V : (c : Dev nD) → (b : Ref sig .tc) → Buf (Elt Ideal) ((c : Thread nD τ).loc b))
theorem out0_eq : (dat0 (F := Ideal) V c).arrAt 2 cfg0.N = lin128K (V c main_arg0) (V c main_arg4) := final0 V c
theorem out1_eq : (dat1 (F := Ideal) V c).arrAt 2 cfg1.N = act128K (V c main_v49) (V c main_arg5) := final1 V c
theorem out2_eq : (dat2 (F := Ideal) V c).arrAt 2 cfg2.N = lin128K (V c main_v50) (V c main_arg6) := final2 V c
theorem out3_eq : (dat3 (F := Ideal) V c).arrAt 2 cfg3.N = act128K (V c main_v64) (V c main_arg7) := final3 V c
theorem out4_eq : (dat4 (F := Ideal) V c).arrAt 2 cfg4.N = lin64K (V c main_v65) (V c main_arg8) := final4 V c
theorem out5_eq : (dat5 (F := Ideal) V c).arrAt 2 cfg5.N = bias64K (V c main_v79) (V c main_arg9) := final5 V c
theorem out6_eq (hoh : V c main_v87 = onehotK (F := Ideal) (V c main_arg2)) :
    (dat6 (F := Ideal) V c).arrAt 2 cfg6.N = sumsK (V c main_v80) (V c main_arg2) := final6 V c hoh
end Outputs

-- The column sums of the one-hot array are the node counts.
theorem meanK_onehot (s : (⟨S64x64, .f32⟩ : BufTy).Contents (Elt Ideal)) (h : (⟨S100000x64, .f32⟩ : BufTy).Contents (Elt Ideal))
    (batch : (⟨S100000, .i32⟩ : BufTy).Contents (Elt Ideal)) (hs : s = sumsK h batch) :
    meanK (F := Ideal) s (onehotK (F := Ideal) batch) = poolK h batch := by
  subst hs
  unfold meanK poolK
  have e : Host.reduceAdd (F := Ideal) (extf .f32 (onehotK (F := Ideal) batch) bitsLt_bf16_f32) (constant (F := Ideal) S_ .f32 0x00000000#32)
      reducesTo_S100000x64_S64_d0 h_S_ = countsK batch := PoolMath.counts_eq batch
  rw [e]

section Chain
variable {v3 v7 : (⟨S700000, .i32⟩ : BufTy).Contents (Elt Ideal)} {v35 : (⟨S700000, .f32⟩ : BufTy).Contents (Elt Ideal)}
variable (h3 : C5 m c main_v3 = v3) (h7 : C5 m c main_v7 = v7) (h35 : C5 m c main_v35 = v35)

set_option quotPrecheck false in
local notation "A0" => m ((c.tc : Thread nD τ).loc main_arg0)
set_option quotPrecheck false in
local notation "A2" => m ((c.tc : Thread nD τ).loc main_arg2)
set_option quotPrecheck false in
local notation "A4" => m ((c.tc : Thread nD τ).loc main_arg4)
set_option quotPrecheck false in
local notation "A5" => m ((c.tc : Thread nD τ).loc main_arg5)
set_option quotPrecheck false in
local notation "A6" => m ((c.tc : Thread nD τ).loc main_arg6)
set_option quotPrecheck false in
local notation "A7" => m ((c.tc : Thread nD τ).loc main_arg7)
set_option quotPrecheck false in
local notation "A8" => m ((c.tc : Thread nD τ).loc main_arg8)
set_option quotPrecheck false in
local notation "A9" => m ((c.tc : Thread nD τ).loc main_arg9)

theorem v36_eq : C6 m c main_v36 = lin128K A0 A4 := by
  rw [C6_self]; unfold o0
  rw [out0_eq]
  show lin128K (C5 m c main_arg0) (C5 m c main_arg4) = _
  rw [C5_arg0, C5_arg4]

include h3 h7 h35

theorem v49_eq : C7 m c main_v49 = aggK128 (lin128K A0 A4) v3 v7 v35 := by
  rw [h49, v36_eq, carry6 m c un_v3, carry6 m c un_v7, carry6 m c un_v35, h3, h7, h35]

theorem v50_eq : C8 m c main_v50 = act128K (aggK128 (lin128K A0 A4) v3 v7 v35) A5 := by
  rw [C8_self]; unfold o1
  rw [out1_eq]
  show act128K (C7 m c main_v49) (C7 m c main_arg5) = _
  rw [v49_eq m c h3 h7 h35, carry7 m c un_arg5, C5_arg5]

theorem v51_eq : C9 m c main_v51 = lin128K (act128K (aggK128 (lin128K A0 A4) v3 v7 v35) A5) A6 := by
  rw [C9_self]; unfold o2
  rw [out2_eq]
  show lin128K (C8 m c main_v50) (C8 m c main_arg6) = _
  rw [v50_eq m c h3 h7 h35, carry8 m c un_arg6, C5_arg6]

theorem v64_eq : C10 m c main_v64 = aggK128 (lin128K (act128K (aggK128 (lin128K A0 A4) v3 v7 v35) A5) A6) v3 v7 v35 := by
  rw [h64, v51_eq m c h3 h7 h35, carry9 m c un_v3, carry9 m c un_v7, carry9 m c un_v35, h3, h7, h35]

theorem v65_eq : C11 m c main_v65
    = act128K (aggK128 (lin128K (act128K (aggK128 (lin128K A0 A4) v3 v7 v35) A5) A6) v3 v7 v35) A7 := by
  rw [C11_self]; unfold o3
  rw [out3_eq]
  show act128K (C10 m c main_v64) (C10 m c main_arg7) = _
  rw [v64_eq m c h3 h7 h35, carry10 m c un_arg7, C5_arg7]

theorem v66_eq : C12 m c main_v66
    = lin64K (act128K (aggK128 (lin128K (act128K (aggK128 (lin128K A0 A4) v3 v7 v35) A5) A6) v3 v7 v35) A7) A8 := by
  rw [C12_self]; unfold o4
  rw [out4_eq]
  show lin64K (C11 m c main_v65) (C11 m c main_arg8) = _
  rw [v65_eq m c h3 h7 h35, carry11 m c un_arg8, C5_arg8]

theorem v79_eq : C13 m c main_v79
    = aggK64 (lin64K (act128K (aggK128 (lin128K (act128K (aggK128 (lin128K A0 A4) v3 v7 v35) A5) A6) v3 v7 v35) A7) A8) v3 v7 v35 := by
  rw [h79, v66_eq m c h3 h7 h35, carry12 m c un_v3, carry12 m c un_v7, carry12 m c un_v35, h3, h7, h35]

theorem v80_eq : C14 m c main_v80
    = bias64K (aggK64 (lin64K (act128K (aggK128 (lin128K (act128K (aggK128 (lin128K A0 A4) v3 v7 v35) A5) A6) v3 v7 v35) A7) A8) v3 v7 v35) A9 := by
  rw [C14_self]; unfold o5
  rw [out5_eq]
  show bias64K (C13 m c main_v79) (C13 m c main_arg9) = _
  rw [v79_eq m c h3 h7 h35, carry13 m c un_arg9, C5_arg9]

omit h3 h7 h35 in

theorem v87_eq : C15 m c main_v87 = onehotK (F := Ideal) A2 := by
  rw [h87, carry14 m c un_arg2, C5_arg2]

theorem v88_eq : C16 m c main_v88
    = sumsK (bias64K (aggK64 (lin64K (act128K (aggK128 (lin128K (act128K (aggK128 (lin128K A0 A4) v3 v7 v35) A5) A6) v3 v7 v35) A7) A8) v3 v7 v35) A9) A2 := by
  rw [C16_self]; unfold o6
  rw [out6_eq c (tc (C15 m)) (by
    show C15 m c main_v87 = onehotK (F := Ideal) (C15 m c main_arg2)
    rw [v87_eq, carry15 m c un_arg2, C5_arg2])]
  show sumsK (C15 m c main_v80) (C15 m c main_arg2) = _
  rw [keep15 m c main_v80 (by decide), v80_eq m c h3 h7 h35, carry15 m c un_arg2, C5_arg2]

variable (v3 v7 v35) in

-- Each region's output is its named function of the buffers before it, and untouched buffers are carried along.
theorem kernel_value : C17 m c main_v95 = kOut A0 v3 v7 v35 A2 A4 A5 A6 A7 A8 A9 := by
  rw [h95, C16_ne m c main_v87 (by decide), v87_eq]
  exact meanK_onehot _ _ _ (v88_eq m c h3 h7 h35)

end Chain

end Cert.KernelIdeal.Hand

end
-- ==== Proof.KiStages.lean ====
import proofs.«400334_j4698694221926_1_alg».proof.Proof.Gen.ReferenceIdeal.Run
import Idealize.ShloMosaic.PureOps.Ideal

noncomputable section

namespace Cert.ReferenceIdeal.Stages

open Cert.ReferenceIdeal Cert.ReferenceIdeal.Gen Idealize.ShloMosaic Idealize.ShloMosaic.TcCoe

def srcV (e : Vec Ideal S2x600000 .i32) : Vec Ideal S700000 .i32 :=
  concatenate S700000 0 [⟨S600000, (shapeCast _ (extractStridedSlice S1x600000 ![0, 0] e slices_S2x600000_S1x600000_0_0) shapeCasts_S1x600000_S600000)⟩, ⟨S100000, (iotaInDim S100000 32 0)⟩] concatenates_S600000_S100000_S700000_d0

def dstV (e : Vec Ideal S2x600000 .i32) : Vec Ideal S700000 .i32 :=
  concatenate S700000 0 [⟨S600000, (shapeCast _ (extractStridedSlice S1x600000 ![1, 0] e slices_S2x600000_S1x600000_1_0) shapeCasts_S1x600000_S600000)⟩, ⟨S100000, (iotaInDim S100000 32 0)⟩] concatenates_S600000_S100000_S700000_d0

def wV (ew : Vec Ideal S600000 .f32) : Vec Ideal S700000 .f32 :=
  concatenate S700000 0 [⟨S600000, ew⟩, ⟨S100000, (broadcastInDim S100000 ![] bcast_S_S100000 (constant (F := Ideal) S_ .f32 0x3F800000#32))⟩] concatenates_S600000_S100000_S700000_d0

def degV (e : Vec Ideal S2x600000 .i32) (ew : Vec Ideal S600000 .f32) : Vec Ideal S100000 .f32 :=
  Host.scatterAdd (F := Ideal) (φ := .f32) scatter_S100000_S700000x1_S700000_n_0_0_1 (broadcastInDim S100000 ![] bcast_S_S100000 (constant (F := Ideal) S_ .f32 0x00000000#32)) (broadcastInDim S700000x1 ![0] bcast_S700000_S700000x1_0 (dstV e)) (wV ew)

def disV (e : Vec Ideal S2x600000 .i32) (ew : Vec Ideal S600000 .f32) : Vec Ideal S100000 .f32 :=
  select (cmpf (F := Ideal) (φ := .f32) .ogt (degV e ew) (broadcastInDim S100000 ![] bcast_S_S100000 (constant (F := Ideal) S_ .f32 0x00000000#32))) (Host.rsqrt (F := Ideal) (φ := .f32) (select (cmpf (F := Ideal) (φ := .f32) .ogt (degV e ew) (broadcastInDim S100000 ![] bcast_S_S100000 (constant (F := Ideal) S_ .f32 0x00000000#32))) (degV e ew) (broadcastInDim S100000 ![] bcast_S_S100000 (id (constant (F := Ideal) S_ .f32 0x3F800000#32))))) (broadcastInDim S100000 ![] bcast_S_S100000 (id (constant (F := Ideal) S_ .f32 0x00000000#32)))

def normV (e : Vec Ideal S2x600000 .i32) (ew : Vec Ideal S600000 .f32) : Vec Ideal S700000 .f32 :=
  mulf (F := Ideal) (φ := .f32) (mulf (F := Ideal) (φ := .f32) (Host.gather gather_S100000_S700000x1_S700000_n_0_n_n_0_1_1 (disV e ew) (broadcastInDim S700000x1 ![0] bcast_S700000_S700000x1_0 (select (cmpi .slt (srcV e) (broadcastInDim S700000 ![] bcast_S_S700000 (constantI S_ 32 0#32))) (addi (srcV e) (broadcastInDim S700000 ![] bcast_S_S700000 (constantI S_ 32 100000#32))) (srcV e)))) (wV ew)) (Host.gather gather_S100000_S700000x1_S700000_n_0_n_n_0_1_1 (disV e ew) (broadcastInDim S700000x1 ![0] bcast_S700000_S700000x1_0 (select (cmpi .slt (dstV e) (broadcastInDim S700000 ![] bcast_S_S700000 (constantI S_ 32 0#32))) (addi (dstV e) (broadcastInDim S700000 ![] bcast_S_S700000 (constantI S_ 32 100000#32))) (dstV e))))

def gidx (e : Vec Ideal S2x600000 .i32) : Vec Ideal S700000x1 .i32 :=
  broadcastInDim S700000x1 ![0] bcast_S700000_S700000x1_0 (select (cmpi .slt (srcV e) (broadcastInDim S700000 ![] bcast_S_S700000 (constantI S_ 32 0#32))) (addi (srcV e) (broadcastInDim S700000 ![] bcast_S_S700000 (constantI S_ 32 100000#32))) (srcV e))

def sidx (e : Vec Ideal S2x600000 .i32) : Vec Ideal S700000x1 .i32 :=
  broadcastInDim S700000x1 ![0] bcast_S700000_S700000x1_0 (dstV e)

def lin128 (x : Vec Ideal S100000x128 .f32) (W : Vec Ideal S128x128 .f32) : Vec Ideal S100000x128 .f32 :=
  Host.dotGeneral (F := Ideal) (φ₁ := .f32) (φ₂ := .f32) dot_S100000x128_S128x128_S100000x128_1_0_0_1_n_n none x W

def lin64 (x : Vec Ideal S100000x128 .f32) (W : Vec Ideal S128x64 .f32) : Vec Ideal S100000x64 .f32 :=
  Host.dotGeneral (F := Ideal) (φ₁ := .f32) (φ₂ := .f32) dot_S100000x128_S128x64_S100000x64_1_0_0_1_n_n none x W

def agg128 (xw : Vec Ideal S100000x128 .f32) (e : Vec Ideal S2x600000 .i32) (ew : Vec Ideal S600000 .f32) : Vec Ideal S100000x128 .f32 :=
  Host.scatterAdd (F := Ideal) (φ := .f32) scatter_S100000x128_S700000x1_S700000x128_1_0_0_1 (broadcastInDim S100000x128 ![] bcast_S_S100000x128 (constant (F := Ideal) S_ .f32 0x00000000#32)) (sidx e) (mulf (F := Ideal) (φ := .f32) (Host.gather gather_S100000x128_S700000x1_S700000x128_1_0_n_n_0_1_1128 xw (gidx e)) (broadcastInDim S700000x128 ![0, 1] bcast_S700000x1_S700000x128_0_1 (broadcastInDim S700000x1 ![0] bcast_S700000_S700000x1_0 (normV e ew))))

def agg64 (xw : Vec Ideal S100000x64 .f32) (e : Vec Ideal S2x600000 .i32) (ew : Vec Ideal S600000 .f32) : Vec Ideal S100000x64 .f32 :=
  Host.scatterAdd (F := Ideal) (φ := .f32) scatter_S100000x64_S700000x1_S700000x64_1_0_0_1 (broadcastInDim S100000x64 ![] bcast_S_S100000x64 (constant (F := Ideal) S_ .f32 0x00000000#32)) (sidx e) (mulf (F := Ideal) (φ := .f32) (Host.gather gather_S100000x64_S700000x1_S700000x64_1_0_n_n_0_1_164 xw (gidx e)) (broadcastInDim S700000x64 ![0, 1] bcast_S700000x1_S700000x64_0_1 (broadcastInDim S700000x1 ![0] bcast_S700000_S700000x1_0 (normV e ew))))

def act128 (a : Vec Ideal S100000x128 .f32) (b : Vec Ideal S128 .f32) : Vec Ideal S100000x128 .f32 :=
  maximumf (F := Ideal) (φ := .f32) (addf (F := Ideal) (φ := .f32) a (broadcastInDim S100000x128 ![0, 1] bcast_S1x128_S100000x128_0_1 (broadcastInDim S1x128 ![1] bcast_S128_S1x128_1 b))) (broadcastInDim S100000x128 ![] bcast_S_S100000x128 (constant (F := Ideal) S_ .f32 0x00000000#32))

def bias64 (a : Vec Ideal S100000x64 .f32) (b : Vec Ideal S64 .f32) : Vec Ideal S100000x64 .f32 :=
  addf (F := Ideal) (φ := .f32) a (broadcastInDim S100000x64 ![0, 1] bcast_S1x64_S100000x64_0_1 (broadcastInDim S1x64 ![1] bcast_S64_S1x64_1 b))

def poolV (h : Vec Ideal S100000x64 .f32) (batch : Vec Ideal S100000 .i32) : Vec Ideal S64x64 .f32 :=
  Host.divf (F := Ideal) (φ := .f32) (Host.scatterAdd (F := Ideal) (φ := .f32) scatter_S64x64_S100000x1_S100000x64_1_0_0_1 (broadcastInDim S64x64 ![] bcast_S_S64x64 (constant (F := Ideal) S_ .f32 0x00000000#32)) (broadcastInDim S100000x1 ![0] bcast_S100000_S100000x1_0 batch) h) (broadcastInDim S64x64 ![0, 1] bcast_S64x1_S64x64_0_1 (broadcastInDim S64x1 ![0] bcast_S64_S64x1_0 (maximumf (F := Ideal) (φ := .f32) (Host.scatterAdd (F := Ideal) (φ := .f32) scatter_S64_S100000x1_S100000_n_0_0_1 (broadcastInDim S64 ![] bcast_S_S64 (constant (F := Ideal) S_ .f32 0x00000000#32)) (broadcastInDim S100000x1 ![0] bcast_S100000_S100000x1_0 batch) (broadcastInDim S100000 ![] bcast_S_S100000 (constant (F := Ideal) S_ .f32 0x3F800000#32))) (broadcastInDim S64 ![] bcast_S_S64 (constant (F := Ideal) S_ .f32 0x3F800000#32)))))

-- Three layers (product with the weight, aggregation over the edges, bias; the first two followed by the maximum with zero), then the mean pool.
def refOut (x : Vec Ideal S100000x128 .f32) (e : Vec Ideal S2x600000 .i32) (batch : Vec Ideal S100000 .i32) (ew : Vec Ideal S600000 .f32) (W1 : Vec Ideal S128x128 .f32) (b1 : Vec Ideal S128 .f32) (W2 : Vec Ideal S128x128 .f32) (b2 : Vec Ideal S128 .f32) (W3 : Vec Ideal S128x64 .f32) (b3 : Vec Ideal S64 .f32) : Vec Ideal S64x64 .f32 :=
  poolV (bias64 (agg64 (lin64 (act128 (agg128 (lin128 (act128 (agg128 (lin128 x W1) e ew) b1) W2) e ew) b2) W3) e ew) b3) batch

set_option maxRecDepth 16384 in

theorem res_eq (m : (ℓ : Loc nD τ sig) → Buf (Elt Ideal) ℓ) (c : Dev nD) :
    Value.res_main_v100 (F := Ideal) m c =
      refOut (m ((c.tc : Thread nD τ).loc main_arg0))
        (m ((c.tc : Thread nD τ).loc main_arg1))
        (m ((c.tc : Thread nD τ).loc main_arg2))
        (m ((c.tc : Thread nD τ).loc main_arg3))
        (m ((c.tc : Thread nD τ).loc main_arg4))
        (m ((c.tc : Thread nD τ).loc main_arg5))
        (m ((c.tc : Thread nD τ).loc main_arg6))
        (m ((c.tc : Thread nD τ).loc main_arg7))
        (m ((c.tc : Thread nD τ).loc main_arg8))
        (m ((c.tc : Thread nD τ).loc main_arg9)) := by
  unfold Value.res_main_v100
  rfl

end Cert.ReferenceIdeal.Stages

end
-- ==== Proof.KiBridge.lean ====
import proofs.«400334_j4698694221926_1_alg».proof.Proof.KiOut
import proofs.«400334_j4698694221926_1_alg».proof.Proof.KiStages

set_option maxRecDepth 16384

noncomputable section

namespace Cert.KernelIdeal.Hand

open Cert.KernelIdeal Idealize.ShloMosaic Idealize.ShloMosaic.TcCoe

theorem agg128_eq (xw : Vec Ideal Cert.ReferenceIdeal.S100000x128 .f32) (e : Vec Ideal Cert.ReferenceIdeal.S2x600000 .i32) (ew : Vec Ideal Cert.ReferenceIdeal.S600000 .f32) :
    aggK128 (F := Ideal) xw (Cert.ReferenceIdeal.Stages.srcV e) (Cert.ReferenceIdeal.Stages.dstV e) (Cert.ReferenceIdeal.Stages.normV e ew) = Cert.ReferenceIdeal.Stages.agg128 xw e ew := by
  unfold aggK128 Cert.ReferenceIdeal.Stages.agg128 Cert.ReferenceIdeal.Stages.sidx Cert.ReferenceIdeal.Stages.gidx
  rfl

theorem agg64_eq (xw : Vec Ideal Cert.ReferenceIdeal.S100000x64 .f32) (e : Vec Ideal Cert.ReferenceIdeal.S2x600000 .i32) (ew : Vec Ideal Cert.ReferenceIdeal.S600000 .f32) :
    aggK64 (F := Ideal) xw (Cert.ReferenceIdeal.Stages.srcV e) (Cert.ReferenceIdeal.Stages.dstV e) (Cert.ReferenceIdeal.Stages.normV e ew) = Cert.ReferenceIdeal.Stages.agg64 xw e ew := by
  unfold aggK64 Cert.ReferenceIdeal.Stages.agg64 Cert.ReferenceIdeal.Stages.sidx Cert.ReferenceIdeal.Stages.gidx
  rfl

theorem lin128_eq (x : Vec Ideal Cert.ReferenceIdeal.S100000x128 .f32) (W : Vec Ideal Cert.ReferenceIdeal.S128x128 .f32) : lin128K x W = Cert.ReferenceIdeal.Stages.lin128 x W := by
  unfold lin128K Cert.ReferenceIdeal.Stages.lin128
  rfl

theorem lin64_eq (x : Vec Ideal Cert.ReferenceIdeal.S100000x128 .f32) (W : Vec Ideal Cert.ReferenceIdeal.S128x64 .f32) : lin64K x W = Cert.ReferenceIdeal.Stages.lin64 x W := by
  unfold lin64K Cert.ReferenceIdeal.Stages.lin64
  rfl

theorem act128_eq (a : Vec Ideal Cert.ReferenceIdeal.S100000x128 .f32) (b : Vec Ideal Cert.ReferenceIdeal.S128 .f32) : act128K a b = Cert.ReferenceIdeal.Stages.act128 a b := by
  unfold act128K Cert.ReferenceIdeal.Stages.act128
  rfl

theorem bias64_eq (a : Vec Ideal Cert.ReferenceIdeal.S100000x64 .f32) (b : Vec Ideal Cert.ReferenceIdeal.S64 .f32) : bias64K a b = Cert.ReferenceIdeal.Stages.bias64 a b := by
  unfold bias64K Cert.ReferenceIdeal.Stages.bias64
  rfl

theorem pool_eq' (h : Vec Ideal Cert.ReferenceIdeal.S100000x64 .f32) (batch : Vec Ideal Cert.ReferenceIdeal.S100000 .i32) : poolK h batch = Cert.ReferenceIdeal.Stages.poolV h batch := by
  unfold poolK sumsK countsK Cert.ReferenceIdeal.Stages.poolV
  rfl

theorem kOut_eq (x : Vec Ideal Cert.ReferenceIdeal.S100000x128 .f32) (e : Vec Ideal Cert.ReferenceIdeal.S2x600000 .i32) (batch : Vec Ideal Cert.ReferenceIdeal.S100000 .i32) (ew : Vec Ideal Cert.ReferenceIdeal.S600000 .f32) (W1 : Vec Ideal Cert.ReferenceIdeal.S128x128 .f32) (b1 : Vec Ideal Cert.ReferenceIdeal.S128 .f32) (W2 : Vec Ideal Cert.ReferenceIdeal.S128x128 .f32) (b2 : Vec Ideal Cert.ReferenceIdeal.S128 .f32) (W3 : Vec Ideal Cert.ReferenceIdeal.S128x64 .f32) (b3 : Vec Ideal Cert.ReferenceIdeal.S64 .f32) :
    kOut x (Cert.ReferenceIdeal.Stages.srcV e) (Cert.ReferenceIdeal.Stages.dstV e) (Cert.ReferenceIdeal.Stages.normV e ew) batch W1 b1 W2 b2 W3 b3 =
      Cert.ReferenceIdeal.Stages.refOut x e batch ew W1 b1 W2 b2 W3 b3 := by
  unfold kOut
  rw [Cert.ReferenceIdeal.Stages.refOut, lin128_eq, agg128_eq, act128_eq, lin128_eq, agg128_eq, act128_eq, lin64_eq, agg64_eq,
    bias64_eq, pool_eq']

end Cert.KernelIdeal.Hand

end
-- ==== Proof.KiBridgePre.lean ====
import proofs.«400334_j4698694221926_1_alg».proof.Proof.KiPrefix
import proofs.«400334_j4698694221926_1_alg».proof.Proof.KiStages

set_option maxRecDepth 16384

noncomputable section

namespace Cert.KernelIdeal.Hand

open Cert.KernelIdeal Idealize.ShloMosaic Idealize.ShloMosaic.TcCoe

theorem srcK_eq (e : Vec Ideal Cert.ReferenceIdeal.S2x600000 .i32) : srcK (F := Ideal) e = Cert.ReferenceIdeal.Stages.srcV e := by
  unfold srcK Cert.ReferenceIdeal.Stages.srcV
  rfl

theorem dstK_eq (e : Vec Ideal Cert.ReferenceIdeal.S2x600000 .i32) : dstK (F := Ideal) e = Cert.ReferenceIdeal.Stages.dstV e := by
  unfold dstK Cert.ReferenceIdeal.Stages.dstV
  rfl

theorem wK_eq (ew : Vec Ideal Cert.ReferenceIdeal.S600000 .f32) : wK (F := Ideal) ew = Cert.ReferenceIdeal.Stages.wV ew := by
  unfold wK Cert.ReferenceIdeal.Stages.wV
  rfl

theorem degK_eq (e : Vec Ideal Cert.ReferenceIdeal.S2x600000 .i32) (ew : Vec Ideal Cert.ReferenceIdeal.S600000 .f32) : degK (F := Ideal) e ew = Cert.ReferenceIdeal.Stages.degV e ew := by
  unfold degK Cert.ReferenceIdeal.Stages.degV zerosK
  rw [dstK_eq, wK_eq]
  rfl

theorem disK_eq (e : Vec Ideal Cert.ReferenceIdeal.S2x600000 .i32) (ew : Vec Ideal Cert.ReferenceIdeal.S600000 .f32) : disK (F := Ideal) e ew = Cert.ReferenceIdeal.Stages.disV e ew := by
  unfold disK rsK safeK posK Cert.ReferenceIdeal.Stages.disV zerosK
  rw [degK_eq]

theorem normK_eq (e : Vec Ideal Cert.ReferenceIdeal.S2x600000 .i32) (ew : Vec Ideal Cert.ReferenceIdeal.S600000 .f32) : normK (F := Ideal) e ew = Cert.ReferenceIdeal.Stages.normV e ew := by
  unfold normK normIdxK Cert.ReferenceIdeal.Stages.normV
  rw [disK_eq, srcK_eq, dstK_eq, wK_eq]
  rfl

end Cert.KernelIdeal.Hand

end
-- ==== Proof.KiFinal.lean ====
import proofs.«400334_j4698694221926_1_alg».proof.Proof.KiRun
import proofs.«400334_j4698694221926_1_alg».proof.Proof.KiChain
import proofs.«400334_j4698694221926_1_alg».proof.Proof.KiBridge
import proofs.«400334_j4698694221926_1_alg».proof.Proof.KiBridgePre
import proofs.«400334_j4698694221926_1_alg».proof.Proof.KiPrefix
import proofs.«400334_j4698694221926_1_alg».proof.Proof.KiStages

noncomputable section

namespace Cert.KernelIdeal.Hand

open Cert.KernelIdeal Cert.KernelIdeal.Gen
open Idealize.ShloMosaic Idealize.ShloMosaic.TcCoe Idealize.SL.Sem

variable {F : FTy → Type} [FloatOps F]

theorem run_value (m : (ℓ : Loc nD τ sig) → Buf (Elt F) ℓ) (ρ : Dev nD → PrngReg) :
    θ_run defs (onTc (τ := τ) (main (F := F))) ⟨m, fun _ => 0, ρ⟩ (fun r => ∀ c : Dev nD,
      r.2.mem ((c.tc : Thread nD τ).loc main_v95) = C17 m c main_v95
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c =>
    ⟨h c _ (mem_uc main_v95 (by decide)),
     kept m c (h c) main_arg0 (by decide) (V17_main_arg0 m (outs m) c),
     kept m c (h c) main_arg1 (by decide) (V17_main_arg1 m (outs m) c),
     kept m c (h c) main_arg2 (by decide) (V17_main_arg2 m (outs m) c),
     kept m c (h c) main_arg3 (by decide) (V17_main_arg3 m (outs m) c),
     kept m c (h c) main_arg4 (by decide) (V17_main_arg4 m (outs m) c),
     kept m c (h c) main_arg5 (by decide) (V17_main_arg5 m (outs m) c),
     kept m c (h c) main_arg6 (by decide) (V17_main_arg6 m (outs m) c),
     kept m c (h c) main_arg7 (by decide) (V17_main_arg7 m (outs m) c),
     kept m c (h c) main_arg8 (by decide) (V17_main_arg8 m (outs m) c),
     kept m c (h c) main_arg9 (by decide) (V17_main_arg9 m (outs m) c)⟩)
    (run_all m ρ)

theorem kernel_final (m : (ℓ : Loc nD τ sig) → Buf (Elt Ideal) ℓ)
    (m' : (ℓ : Loc Cert.ReferenceIdeal.nD Cert.ReferenceIdeal.τ Cert.ReferenceIdeal.sig) → Buf (Elt Ideal) ℓ) (c : Dev nD)
    (hagree : m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) :
    C17 (F := Ideal) m c main_v95 = Cert.ReferenceIdeal.Value.res_main_v100 (F := Ideal) m' c := by
  obtain ⟨a0, a1, a2, a3, a4, a5, a6, a7, a8, a9⟩ := hagree
  rw [Cert.ReferenceIdeal.Stages.res_eq, a0, a1, a2, a3, a4, a5, a6, a7, a8, a9]
  rw [kernel_value m c _ _ _ (pre_v3 m c) (pre_v7 m c) (pre_v35 m c), srcK_eq, dstK_eq, normK_eq]
  exact kOut_eq ..

end Cert.KernelIdeal.Hand

end
-- ==== Proof.lean ====
import proofs.«400334_j4698694221926_1_alg».proof.Defs
import proofs.«400334_j4698694221926_1_alg».proof.Proof.Gen.Kernel
import proofs.«400334_j4698694221926_1_alg».proof.Proof.Gen.KernelIdeal
import proofs.«400334_j4698694221926_1_alg».proof.Proof.Gen.ReferenceIdeal
import proofs.«400334_j4698694221926_1_alg».proof.Proof.Gen.Pre_finite_inputs
import proofs.«400334_j4698694221926_1_alg».proof.Proof.Gen.ReferenceIdeal.Run
import proofs.«400334_j4698694221926_1_alg».proof.Proof.KRun
import proofs.«400334_j4698694221926_1_alg».proof.Proof.KiFinal
import Idealize.ShloMosaic.Adequacy
import Idealize.ShloMosaic.Init

noncomputable section

namespace Cert.Proof

open Idealize.ShloMosaic Idealize.SL.Sem

theorem frame_k : Cert.frame_Kernel := fun m ρ _ => Cert.Kernel.Hand.frame (F := Bits) m ρ

theorem frame_ki : Cert.frame_KernelIdeal := fun m ρ _ => Cert.KernelIdeal.Hand.frame (F := Ideal) m ρ

-- The reference's frame is its run with the result dropped.
theorem frame_ri : Cert.frame_ReferenceIdeal := fun m ρ _ =>
  (θ_run Cert.ReferenceIdeal.defs _ _).mono (fun _ h c => (h c).2) (Cert.ReferenceIdeal.Value.run (F := Ideal) m ρ)

theorem preserves : Cert.preserves_Kernel_KernelIdeal := trivial

-- From memories agreeing on the arguments both programs run, and the kernel program's result is the reference's composed result of the same arguments.
theorem algebraic : Cert.algebraic_KernelIdeal_ReferenceIdeal := by
  intro m ρ m' ρ' _ hagree
  refine ⟨fun c => Cert.ReferenceIdeal.Value.res_main_v100 (F := Ideal) m' c, ?_, Cert.ReferenceIdeal.Value.run (F := Ideal) m' ρ'⟩
  exact (θ_run Cert.KernelIdeal.defs _ _).mono
    (fun _ h c => ⟨(h c).1.trans (Cert.KernelIdeal.Hand.kernel_final m m' c (hagree c)), (h c).2⟩)
    (Cert.KernelIdeal.Hand.run_value (F := Ideal) m ρ)

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
